-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4x32x32x256 : Shape := ⟨5, ![2, 4, 32, 32, 256]⟩
abbrev S512x256 : Shape := ⟨2, ![512, 256]⟩
abbrev S256x512 : Shape := ⟨2, ![256, 512]⟩
abbrev S_ : Shape := ⟨0, ![]⟩

class Facts : Prop where
  bcast_S_S2x4x32x32x256 : S_.BroadcastsInDim S2x4x32x32x256 (![] : Fin 0 → Fin S2x4x32x32x256.rank)
  reducesTo_S2x4x32x32x256_S_d0_1_2_3_4 : S2x4x32x32x256.ReducesTo [0, 1, 2, 3, 4] S_
  h_S_ : 0 < S_.numel
  bcast_S_S512x256 : S_.BroadcastsInDim S512x256 (![] : Fin 0 → Fin S512x256.rank)
  reducesTo_S512x256_S_d0_1 : S512x256.ReducesTo [0, 1] S_
  bcast_S_S256x512 : S_.BroadcastsInDim S256x512 (![] : Fin 0 → Fin S256x512.rank)
  reducesTo_S256x512_S_d0_1 : S256x512.ReducesTo [0, 1] S_

variable [Facts]

def fn_part1 {F : FTy → Type} [FloatOps F] (main_arg4 : FVec F S256x512 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S256x512 .f32 := Host.absf main_arg4
  let main_cst_6 : FVec F S_ .f32 := constant S_ .f32 0x7F800000#32
  let main_v20 : FVec F S256x512 .f32 := broadcastInDim S256x512 ![] bcast_S_S256x512 main_cst_6
  let main_v21 : IVec S256x512 1 := cmpf .olt main_v19 main_v20
  let main_c_7 : IVec S_ 1 := constantI S_ 1 1#1
  let main_v22 : IVec S_ 1 := (fun x v => Host.reduce IntOp.andi x v reducesTo_S256x512_S_d0_1 h_S_) main_v21 main_c_7
  let main_v23 : IVec S_ 1 := andi main_v18 main_v22
  main_v23

def fn {F : FTy → Type} [FloatOps F] (main_arg0 : FVec F S2x4x32x32x256 .f32) (main_arg1 : FVec F S512x256 .f32) (main_arg2 : FVec F S512x256 .f32) (main_arg3 : FVec F S512x256 .f32) (main_arg4 : FVec F S256x512 .f32) : IVec S_ 1 :=
  let main_v0 : FVec F S2x4x32x32x256 .f32 := Host.absf main_arg0
  let main_cst : FVec F S_ .f32 := constant S_ .f32 0x7F800000#32
  let main_v1 : FVec F S2x4x32x32x256 .f32 := broadcastInDim S2x4x32x32x256 ![] bcast_S_S2x4x32x32x256 main_cst
  let main_v2 : IVec S2x4x32x32x256 1 := cmpf .olt main_v0 main_v1
  let main_c : IVec S_ 1 := constantI S_ 1 1#1
  let main_v3 : IVec S_ 1 := (fun x v => Host.reduce IntOp.andi x v reducesTo_S2x4x32x32x256_S_d0_1_2_3_4 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S512x256 .f32 := Host.absf main_arg3
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg4 main_v13 main_v16
-- ==== Kernel.lean ====
abbrev S2x4x32x32x256 : Shape := ⟨5, ![2, 4, 32, 32, 256]⟩
abbrev S512x256 : Shape := ⟨2, ![512, 256]⟩
abbrev S256x512 : Shape := ⟨2, ![256, 512]⟩
abbrev S_ : Shape := ⟨0, ![]⟩
abbrev S8192x256 : Shape := ⟨2, ![8192, 256]⟩
abbrev S8192x512 : Shape := ⟨2, ![8192, 512]⟩
abbrev S1024x256 : Shape := ⟨2, ![1024, 256]⟩
abbrev S1024x512 : Shape := ⟨2, ![1024, 512]⟩
abbrev S2x4096x8x64 : Shape := ⟨4, ![2, 4096, 8, 64]⟩
abbrev S2x8x4096x64 : Shape := ⟨4, ![2, 8, 4096, 64]⟩
abbrev S16x4096x64 : Shape := ⟨3, ![16, 4096, 64]⟩
abbrev S1x1024x64 : Shape := ⟨3, ![1, 1024, 64]⟩
abbrev S1x512x64 : Shape := ⟨3, ![1, 512, 64]⟩
abbrev S1024x1 : Shape := ⟨2, ![1024, 1]⟩
abbrev S1024x64 : Shape := ⟨2, ![1024, 64]⟩
abbrev S512x64 : Shape := ⟨2, ![512, 64]⟩
abbrev S1024 : Shape := ⟨1, ![1024]⟩

abbrev nBuf : Space → Nat
  | .hbm => 35
  | .vmem => 27
  | .smem => 0
  | _ => 0

abbrev bufTy : (tb : Table) → Fin (tcTables nBuf tb) → BufTy
  | .hbm, ⟨0, _⟩ => ⟨S2x4x32x32x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S256x512, .f32⟩
  | .hbm, ⟨5, _⟩ => ⟨S_, .f32⟩
  | .hbm, ⟨6, _⟩ => ⟨S512x256, .f32⟩
  | .hbm, ⟨7, _⟩ => ⟨S512x256, .f32⟩
  | .hbm, ⟨8, _⟩ => ⟨S256x512, .f32⟩
  | .hbm, ⟨9, _⟩ => ⟨S256x512, .bf16⟩
  | .hbm, ⟨10, _⟩ => ⟨S256x512, .f32⟩
  | .hbm, ⟨11, _⟩ => ⟨S256x512, .bf16⟩
  | .hbm, ⟨12, _⟩ => ⟨S256x512, .f32⟩
  | .hbm, ⟨13, _⟩ => ⟨S256x512, .bf16⟩
  | .hbm, ⟨14, _⟩ => ⟨S512x256, .f32⟩
  | .hbm, ⟨15, _⟩ => ⟨S512x256, .bf16⟩
  | .hbm, ⟨16, _⟩ => ⟨S8192x256, .f32⟩
  | .hbm, ⟨17, _⟩ => ⟨S8192x512, .bf16⟩
  | .hbm, ⟨18, _⟩ => ⟨S8192x512, .bf16⟩
  | .hbm, ⟨19, _⟩ => ⟨S8192x512, .bf16⟩
  | .hbm, ⟨20, _⟩ => ⟨S2x4096x8x64, .bf16⟩
  | .hbm, ⟨21, _⟩ => ⟨S2x8x4096x64, .bf16⟩
  | .hbm, ⟨22, _⟩ => ⟨S16x4096x64, .bf16⟩
  | .hbm, ⟨23, _⟩ => ⟨S2x4096x8x64, .bf16⟩
  | .hbm, ⟨24, _⟩ => ⟨S2x8x4096x64, .bf16⟩
  | .hbm, ⟨25, _⟩ => ⟨S16x4096x64, .bf16⟩
  | .hbm, ⟨26, _⟩ => ⟨S2x4096x8x64, .bf16⟩
  | .hbm, ⟨27, _⟩ => ⟨S2x8x4096x64, .bf16⟩
  | .hbm, ⟨28, _⟩ => ⟨S16x4096x64, .bf16⟩
  | .hbm, ⟨29, _⟩ => ⟨S16x4096x64, .bf16⟩
  | .hbm, ⟨30, _⟩ => ⟨S2x8x4096x64, .bf16⟩
  | .hbm, ⟨31, _⟩ => ⟨S2x4096x8x64, .bf16⟩
  | .hbm, ⟨32, _⟩ => ⟨S8192x512, .bf16⟩
  | .hbm, ⟨33, _⟩ => ⟨S8192x256, .f32⟩
  | .hbm, ⟨34, _⟩ => ⟨S2x4x32x32x256, .f32⟩
  | .local _ .vmem, ⟨0, _⟩ => ⟨S1024x256, .f32⟩
  | .local _ .vmem, ⟨1, _⟩ => ⟨S1024x256, .f32⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1x1024x64, .bf16⟩
  | .local _ .vmem, ⟨12, _⟩ => ⟨S1x1024x64, .bf16⟩
  | .local _ .vmem, ⟨13, _⟩ => ⟨S1x512x64, .bf16⟩
  | .local _ .vmem, ⟨14, _⟩ => ⟨S1x512x64, .bf16⟩
  | .local _ .vmem, ⟨15, _⟩ => ⟨S1x512x64, .bf16⟩
  | .local _ .vmem, ⟨16, _⟩ => ⟨S1x512x64, .bf16⟩
  | .local _ .vmem, ⟨17, _⟩ => ⟨S1x1024x64, .bf16⟩
  | .local _ .vmem, ⟨18, _⟩ => ⟨S1x1024x64, .bf16⟩
  | .local _ .vmem, ⟨19, _⟩ => ⟨S1024x1, .f32⟩
  | .local _ .vmem, ⟨20, _⟩ => ⟨S1024x1, .f32⟩
  | .local _ .vmem, ⟨21, _⟩ => ⟨S1024x64, .f32⟩
  | .local _ .vmem, ⟨22, _⟩ => ⟨S1024x512, .bf16⟩
  | .local _ .vmem, ⟨23, _⟩ => ⟨S1024x512, .bf16⟩
  | .local _ .vmem, ⟨24, _⟩ => ⟨S512x256, .bf16⟩
  | .local _ .vmem, ⟨25, _⟩ => ⟨S1024x256, .f32⟩
  | .local _ .vmem, ⟨26, _⟩ => ⟨S1024x256, .f32⟩
  | _, _ => ⟨S2x4x32x32x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev main_v11_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_scratch0 : Ref sig .tc := ⟨.vmem, 19, rfl⟩
abbrev cc1_scratch1 : Ref sig .tc := ⟨.vmem, 20, rfl⟩
abbrev cc1_scratch2 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg2_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc2_sem0_0 : DmaSem sig := 19
abbrev cc2_sem0_1 : DmaSem sig := 20
abbrev cc2_sem1_0 : DmaSem sig := 21
abbrev cc2_sem2_0 : DmaSem sig := 22
abbrev cc2_sem2_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨3, ![16, 4, 8], ![false, false, false]⟩

def k1_cond2 (i : grid1.Coords) : BitVec 1 :=
  let arg2 : BitVec 32 := BitVec.ofNat 32 (i 2).val
  let c7_i32 : BitVec 32 := 7#32
  let v40 : BitVec 1 := Scalar.cmpi .eq arg2 c7_i32
  let v41 : BitVec 32 := Scalar.extui v40
  let c0_i32_26 : BitVec 32 := 0#32
  let v42 : BitVec 1 := Scalar.cmpi .ne v41 c0_i32_26
  v42

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x512x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x1024x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1024x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  bcast_S_S512x256 : S_.BroadcastsInDim S512x256 (![] : Fin 0 → Fin S512x256.rank)
  transposes_S512x256_S256x512_1_0 : S512x256.Transposes [1, 0] S256x512
  bitsLt_bf16_f32 : FTy.bits .bf16 < FTy.bits .f32
  transposes_S256x512_S512x256_1_0 : S256x512.Transposes [1, 0] S512x256
  shapeCasts_S2x4x32x32x256_S8192x256 : S2x4x32x32x256.ShapeCasts S8192x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1024x512_S1024x512_0_0 : ∀ a, (![0, 0] : Fin 2 → Nat) a + S1024x512.size a ≤ S1024x512.size a
  h_S1024x512 : 0 < S1024x512.numel
  packedbf16_S1024x512_S1024x512_0_0 : (Rect.unit (s := S1024x512) ![0, 0] S1024x512.size inb_S1024x512_S1024x512_0_0).PackedRows (EltTy.packing .bf16)
  shapeCasts_S8192x512_S2x4096x8x64 : S8192x512.ShapeCasts S2x4096x8x64
  transposes_S2x4096x8x64_S2x8x4096x64_0_2_1_3 : S2x4096x8x64.Transposes [0, 2, 1, 3] S2x8x4096x64
  shapeCasts_S2x8x4096x64_S16x4096x64 : S2x8x4096x64.ShapeCasts S16x4096x64
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  reduces_S1024x512_S1024 : S1024x512.Reduces [1] S1024
  shapeCasts_S1024_S1024x1 : S1024.ShapeCasts S1024x1
  broadcasts_S1024x1_S1024x512 : S1024x1.Broadcasts S1024x512
  broadcasts_S1024x1_S1024x64 : S1024x1.Broadcasts S1024x64
  shapeCasts_S1024x64_S1x1024x64 : S1024x64.ShapeCasts S1x1024x64
  packedbf16_S1x1024x64_S1x1024x64_0_0_0 : (Rect.unit (s := S1x1024x64) ![0, 0, 0] S1x1024x64.size inb_S1x1024x64_S1x1024x64_0_0_0).PackedRows (EltTy.packing .bf16)
  shapeCasts_S16x4096x64_S2x8x4096x64 : S16x4096x64.ShapeCasts S2x8x4096x64
  transposes_S2x8x4096x64_S2x4096x8x64_0_2_1_3 : S2x8x4096x64.Transposes [0, 2, 1, 3] S2x4096x8x64
  shapeCasts_S2x4096x8x64_S8192x512 : S2x4096x8x64.ShapeCasts S8192x512
  shapeCasts_S1024x512_S1024x512 : S1024x512.ShapeCasts S1024x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  shapeCasts_S8192x256_S2x4x32x32x256 : S8192x256.ShapeCasts S2x4x32x32x256
  dot_S1024x256_S256x512_S1024x512_1_0_0_1_n_n_wf : DotDims.WF S1024x256 S256x512 S1024x512 [1] [0] [0] [1] [] []
  dot_S1024x64_S512x64_S1024x512_1_1_0_0_n_n_wf : DotDims.WF S1024x64 S512x64 S1024x512 [1] [1] [0] [0] [] []
  dot_S1024x512_S512x64_S1024x64_1_0_0_1_n_n_wf : DotDims.WF S1024x512 S512x64 S1024x64 [1] [0] [0] [1] [] []
  dot_S1024x512_S512x256_S1024x256_1_0_0_1_n_n_wf : DotDims.WF S1024x512 S512x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .bf16 = 32 ∨ (Rect.block (s := S256x512) S256x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x512.size a
  hwx0_2 : ∀ i : grid0.Coords, EltTy.bits .bf16 = 32 ∨ (Rect.block (s := S256x512) S256x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S256x512.size a
  hwx0_3 : ∀ i : grid0.Coords, EltTy.bits .bf16 = 32 ∨ (Rect.block (s := S256x512) S256x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S8192x512.size a
  hwx0_4 : ∀ i : grid0.Coords, EltTy.bits .bf16 = 32 ∨ (Rect.block (s := S8192x512) S1024x512.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S8192x512.size a
  hwx0_5 : ∀ i : grid0.Coords, EltTy.bits .bf16 = 32 ∨ (Rect.block (s := S8192x512) S1024x512.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x512.size a ≤ S8192x512.size a
  hwx0_6 : ∀ i : grid0.Coords, EltTy.bits .bf16 = 32 ∨ (Rect.block (s := S8192x512) S1024x512.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x64.size a ≤ S16x4096x64.size a
  hwx1_0 : ∀ i : grid1.Coords, EltTy.bits .bf16 = 32 ∨ (Rect.block (s := S16x4096x64) S1x1024x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x64.size a ≤ S16x4096x64.size a
  hwx1_1 : ∀ i : grid1.Coords, EltTy.bits .bf16 = 32 ∨ (Rect.block (s := S16x4096x64) S1x512x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x64.size a ≤ S16x4096x64.size a
  hwx1_2 : ∀ i : grid1.Coords, EltTy.bits .bf16 = 32 ∨ (Rect.block (s := S16x4096x64) S1x512x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x64.size a ≤ S16x4096x64.size a
  hwx1_3 : ∀ i : grid1.Coords, EltTy.bits .bf16 = 32 ∨ (Rect.block (s := S16x4096x64) S1x1024x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x512.size a ≤ S8192x512.size a
  hwx2_0 : ∀ i : grid2.Coords, EltTy.bits .bf16 = 32 ∨ (Rect.block (s := S8192x512) S1024x512.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x256.size a ≤ S512x256.size a
  hwx2_1 : ∀ i : grid2.Coords, EltTy.bits .bf16 = 32 ∨ (Rect.block (s := S512x256) S512x256.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x256.size a ≤ S8192x256.size a
  hwx2_2 : ∀ i : grid2.Coords, EltTy.bits .f32 = 32 ∨ (Rect.block (s := S8192x256) S1024x256.size (cc2_transform_2 i) (hinb2_2 i)).WholeWords (EltTy.packing .f32)

variable [Facts₀]

def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf
def dot_S1024x64_S512x64_S1024x512_1_1_0_0_n_n : DotDims S1024x64 S512x64 S1024x512 where
  lhsContracting := [1]
  rhsContracting := [1]
  lhsNonContracting := [0]
  rhsNonContracting := [0]
  lhsBatch := []
  rhsBatch := []
  wf := dot_S1024x64_S512x64_S1024x512_1_1_0_0_n_n_wf
def dot_S1024x512_S512x64_S1024x64_1_0_0_1_n_n : DotDims S1024x512 S512x64 S1024x64 where
  lhsContracting := [1]
  rhsContracting := [0]
  lhsNonContracting := [0]
  rhsNonContracting := [1]
  lhsBatch := []
  rhsBatch := []
  wf := dot_S1024x512_S512x64_S1024x64_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf

abbrev win0_0 : Pipeline.Window sig grid0 :=
  Pipeline.Window.ofSpec (Memref.whole main_v10) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S256x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S256x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11_0) S1024x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v11_1) S1024x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v11_2) S1024x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v14) S1x1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S1x512x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S1x512x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v21) S1x1024x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v24) S1024x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v9) S512x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v25) S1024x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S2x4x32x32x256 : Shape := ⟨5, ![2, 4, 32, 32, 256]⟩
abbrev S512x256 : Shape := ⟨2, ![512, 256]⟩
abbrev S256x512 : Shape := ⟨2, ![256, 512]⟩
abbrev S2x4x32x32x512 : Shape := ⟨5, ![2, 4, 32, 32, 512]⟩
abbrev S2x4096x8x64 : Shape := ⟨4, ![2, 4096, 8, 64]⟩
abbrev S2x8x4096x64 : Shape := ⟨4, ![2, 8, 4096, 64]⟩
abbrev S2x8x4096x4096 : Shape := ⟨4, ![2, 8, 4096, 4096]⟩
abbrev S_ : Shape := ⟨0, ![]⟩
abbrev S2x8x4096 : Shape := ⟨3, ![2, 8, 4096]⟩
abbrev S2x8x4096x1 : Shape := ⟨4, ![2, 8, 4096, 1]⟩

abbrev nBuf : Space → Nat
  | .hbm => 36
  | .vmem => 0
  | .smem => 0
  | _ => 0

abbrev bufTy : (tb : Table) → Fin (tcTables nBuf tb) → BufTy
  | .hbm, ⟨0, _⟩ => ⟨S2x4x32x32x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S256x512, .f32⟩
  | .hbm, ⟨5, _⟩ => ⟨S2x4x32x32x512, .f32⟩
  | .hbm, ⟨6, _⟩ => ⟨S2x4096x8x64, .f32⟩
  | .hbm, ⟨7, _⟩ => ⟨S2x8x4096x64, .f32⟩
  | .hbm, ⟨8, _⟩ => ⟨S2x4x32x32x512, .f32⟩
  | .hbm, ⟨9, _⟩ => ⟨S2x4096x8x64, .f32⟩
  | .hbm, ⟨10, _⟩ => ⟨S2x8x4096x64, .f32⟩
  | .hbm, ⟨11, _⟩ => ⟨S2x4x32x32x512, .f32⟩
  | .hbm, ⟨12, _⟩ => ⟨S2x4096x8x64, .f32⟩
  | .hbm, ⟨13, _⟩ => ⟨S2x8x4096x64, .f32⟩
  | .hbm, ⟨14, _⟩ => ⟨S2x8x4096x4096, .f32⟩
  | .hbm, ⟨15, _⟩ => ⟨S_, .f32⟩
  | .hbm, ⟨16, _⟩ => ⟨S2x8x4096x4096, .f32⟩
  | .hbm, ⟨17, _⟩ => ⟨S2x8x4096x4096, .f32⟩
  | .hbm, ⟨18, _⟩ => ⟨S_, .f32⟩
  | .hbm, ⟨19, _⟩ => ⟨S2x8x4096, .f32⟩
  | .hbm, ⟨20, _⟩ => ⟨S_, .f32⟩
  | .hbm, ⟨21, _⟩ => ⟨S2x8x4096, .f32⟩
  | .hbm, ⟨22, _⟩ => ⟨S2x8x4096, .f32⟩
  | .hbm, ⟨23, _⟩ => ⟨S2x8x4096x1, .f32⟩
  | .hbm, ⟨24, _⟩ => ⟨S2x8x4096x4096, .f32⟩
  | .hbm, ⟨25, _⟩ => ⟨S2x8x4096x4096, .f32⟩
  | .hbm, ⟨26, _⟩ => ⟨S2x8x4096x4096, .f32⟩
  | .hbm, ⟨27, _⟩ => ⟨S_, .f32⟩
  | .hbm, ⟨28, _⟩ => ⟨S2x8x4096, .f32⟩
  | .hbm, ⟨29, _⟩ => ⟨S2x8x4096x1, .f32⟩
  | .hbm, ⟨30, _⟩ => ⟨S2x8x4096x4096, .f32⟩
  | .hbm, ⟨31, _⟩ => ⟨S2x8x4096x4096, .f32⟩
  | .hbm, ⟨32, _⟩ => ⟨S2x8x4096x64, .f32⟩
  | .hbm, ⟨33, _⟩ => ⟨S2x4096x8x64, .f32⟩
  | .hbm, ⟨34, _⟩ => ⟨S2x4x32x32x512, .f32⟩
  | .hbm, ⟨35, _⟩ => ⟨S2x4x32x32x256, .f32⟩
  | _, _ => ⟨S2x4x32x32x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]

class Facts₀ : Prop where
  shapeCasts_S2x4x32x32x512_S2x4096x8x64 : S2x4x32x32x512.ShapeCasts S2x4096x8x64
  transposes_S2x4096x8x64_S2x8x4096x64_0_2_1_3 : S2x4096x8x64.Transposes [0, 2, 1, 3] S2x8x4096x64
  bcast_S_S2x8x4096x4096 : S_.BroadcastsInDim S2x8x4096x4096 (![] : Fin 0 → Fin S2x8x4096x4096.rank)
  reducesTo_S2x8x4096x4096_S2x8x4096_d3 : S2x8x4096x4096.ReducesTo [3] S2x8x4096
  h_S_ : 0 < S_.numel
  bcast_S_S2x8x4096 : S_.BroadcastsInDim S2x8x4096 (![] : Fin 0 → Fin S2x8x4096.rank)
  bcast_S2x8x4096_S2x8x4096x1_0_1_2 : S2x8x4096.BroadcastsInDim S2x8x4096x1 (![0, 1, 2] : Fin 3 → Fin S2x8x4096x1.rank)
  bcast_S2x8x4096x1_S2x8x4096x4096_0_1_2_3 : S2x8x4096x1.BroadcastsInDim S2x8x4096x4096 (![0, 1, 2, 3] : Fin 4 → Fin S2x8x4096x4096.rank)
  transposes_S2x8x4096x64_S2x4096x8x64_0_2_1_3 : S2x8x4096x64.Transposes [0, 2, 1, 3] S2x4096x8x64
  shapeCasts_S2x4096x8x64_S2x4x32x32x512 : S2x4096x8x64.ShapeCasts S2x4x32x32x512
  dot_S2x4x32x32x256_S512x256_S2x4x32x32x512_4_1_0123_0_n_n_wf : DotDims.WF S2x4x32x32x256 S512x256 S2x4x32x32x512 [4] [1] [0, 1, 2, 3] [0] [] []
  dot_S2x8x4096x64_S2x8x4096x64_S2x8x4096x4096_3_3_2_2_01_01_wf : DotDims.WF S2x8x4096x64 S2x8x4096x64 S2x8x4096x4096 [3] [3] [2] [2] [0, 1] [0, 1]
  dot_S2x8x4096x4096_S2x8x4096x64_S2x8x4096x64_3_2_2_3_01_01_wf : DotDims.WF S2x8x4096x4096 S2x8x4096x64 S2x8x4096x64 [3] [2] [2] [3] [0, 1] [0, 1]
  dot_S2x4x32x32x512_S256x512_S2x4x32x32x256_4_1_0123_0_n_n_wf : DotDims.WF S2x4x32x32x512 S256x512 S2x4x32x32x256 [4] [1] [0, 1, 2, 3] [0] [] []

variable [Facts₀]

def dot_S2x4x32x32x256_S512x256_S2x4x32x32x512_4_1_0123_0_n_n : DotDims S2x4x32x32x256 S512x256 S2x4x32x32x512 where
  lhsContracting := [4]
  rhsContracting := [1]
  lhsNonContracting := [0, 1, 2, 3]
  rhsNonContracting := [0]
  lhsBatch := []
  rhsBatch := []
  wf := dot_S2x4x32x32x256_S512x256_S2x4x32x32x512_4_1_0123_0_n_n_wf
def dot_S2x8x4096x64_S2x8x4096x64_S2x8x4096x4096_3_3_2_2_01_01 : DotDims S2x8x4096x64 S2x8x4096x64 S2x8x4096x4096 where
  lhsContracting := [3]
  rhsContracting := [3]
  lhsNonContracting := [2]
  rhsNonContracting := [2]
  lhsBatch := [0, 1]
  rhsBatch := [0, 1]
  wf := dot_S2x8x4096x64_S2x8x4096x64_S2x8x4096x4096_3_3_2_2_01_01_wf
def dot_S2x8x4096x4096_S2x8x4096x64_S2x8x4096x64_3_2_2_3_01_01 : DotDims S2x8x4096x4096 S2x8x4096x64 S2x8x4096x64 where
  lhsContracting := [3]
  rhsContracting := [2]
  lhsNonContracting := [2]
  rhsNonContracting := [3]
  lhsBatch := [0, 1]
  rhsBatch := [0, 1]
  wf := dot_S2x8x4096x4096_S2x8x4096x64_S2x8x4096x64_3_2_2_3_01_01_wf
def dot_S2x4x32x32x512_S256x512_S2x4x32x32x256_4_1_0123_0_n_n : DotDims S2x4x32x32x512 S256x512 S2x4x32x32x256 where
  lhsContracting := [4]
  rhsContracting := [1]
  lhsNonContracting := [0, 1, 2, 3]
  rhsNonContracting := [0]
  lhsBatch := []
  rhsBatch := []
  wf := dot_S2x4x32x32x512_S256x512_S2x4x32x32x256_4_1_0123_0_n_n_wf

class Facts : Prop extends Facts₀ where

variable [Facts]
-- ==== Proof.WordLaunch0.lean ====
import proofs.«403715_j42039139893702_3_alg».proof.Proof.Gen.Kernel.Launch
import proofs.«403715_j42039139893702_3_alg».proof.Proof.Gen.Kernel.Skeleton
import proofs.«403715_j42039139893702_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0x : Rect S1024x256 := Rect.unit (s := S1024x256) ![0, 0] S1024x256.size inb_S1024x256_S1024x256_0_0
abbrev r0w : Rect S256x512 := Rect.unit (s := S256x512) ![0, 0] S256x512.size inb_S256x512_S256x512_0_0
abbrev r0o : Rect S1024x512 := Rect.unit (s := S1024x512) ![0, 0] S1024x512.size inb_S1024x512_S1024x512_0_0

def out0_4 (x0 : Vec F S1024x256 .f32) (w1 : Vec F S256x512 .bf16) : Vec F S1024x512 .bf16 :=
  View.canon [⟨r0o, k0_pay2 (View.ld x0 r0x) (View.ld w1 r0w)⟩]
def out0_5 (x0 : Vec F S1024x256 .f32) (w2 : Vec F S256x512 .bf16) : Vec F S1024x512 .bf16 :=
  View.canon [⟨r0o, k0_pay3 (View.ld x0 r0x) (View.ld w2 r0w)⟩]
def out0_6 (x0 : Vec F S1024x256 .f32) (w3 : Vec F S256x512 .bf16) : Vec F S1024x512 .bf16 :=
  View.canon [⟨r0o, k0_pay4 (View.ld x0 r0x) (View.ld w3 r0w)⟩]

theorem cover0_o (p0 : Vec F S1024x512 .bf16) (y : S1024x512.Idx) :
    ∃ pc ∈ ([⟨r0o, p0⟩] : List (View.Piece (Elt F) S1024x512 .bf16)), y ∈ pc.1.set :=
  View.cover_of_tiled [⟨r0o, p0⟩] S1024x512.size (by rfl) y

set_option maxHeartbeats 2000000 in

theorem sound_kernel0 (c : Dev nD) (E : Set ℕ) (i : grid0.Coords)
    (arg1 : Memref sig .tc .vmem S1024x256 .f32) (harg1 : arg1.IsWhole) (arg2 : Memref sig .tc .vmem S256x512 .bf16) (harg2 : arg2.IsWhole)
    (arg3 : Memref sig .tc .vmem S256x512 .bf16) (harg3 : arg3.IsWhole) (arg4 : Memref sig .tc .vmem S256x512 .bf16) (harg4 : arg4.IsWhole)
    (arg5 : Memref sig .tc .vmem S1024x512 .bf16) (harg5 : arg5.IsWhole) (arg6 : Memref sig .tc .vmem S1024x512 .bf16) (harg6 : arg6.IsWhole)
    (arg7 : Memref sig .tc .vmem S1024x512 .bf16) (harg7 : arg7.IsWhole)
    (x0 : Vec F S1024x256 .f32) (w1 w2 w3 : Vec F S256x512 .bf16) (K : PUnit → sProp 𝕄) :
    iprop(owns (c : Thread nD τ) arg1 fullShare x0 ∗ owns (c : Thread nD τ) arg2 fullShare w1 ∗ owns (c : Thread nD τ) arg3 fullShare w2
        ∗ owns (c : Thread nD τ) arg4 fullShare w3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare w1 ∗ owns (c : Thread nD τ) arg3 fullShare w2
            ∗ owns (c : Thread nD τ) arg4 fullShare w3
            ∗ owns (c : Thread nD τ) arg5 fullShare (out0_4 x0 w1) ∗ owns (c : Thread nD τ) arg6 fullShare (out0_5 x0 w2)
            ∗ owns (c : Thread nD τ) arg7 fullShare (out0_6 x0 w3)) -∗ K ⟨⟩))
      ⊢ wp frame (wpE (defs₀ (F := F)) Variants.none c none) E (cc0__qkv_proj_kernel i arg1 harg1 arg2 harg2 arg3 harg3 arg4 harg4 arg5 harg5 arg6 harg6 arg7 harg7) K := by
  simp only [cc0__qkv_proj_kernel_eq_skeleton]; unfold cc0__qkv_proj_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_o _)
  isplitl [H6]
  · iexists _; isplitr
    swap; · iexact H6
    ipureintro
    exact View.read_writes_eq_canon _ _ _ (cover0_o _)
  iexists _; isplitr
  swap; · iexact H7
  ipureintro
  exact View.read_writes_eq_canon _ _ _ (cover0_o _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t)
    | ⟨6, _⟩ => out0_6 (iblk0 V c 0 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 0 t) (iblk0 V c 3 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  iframe H0 H1 H2 H3
  isplitl [H4]; · iexists _; iexact H4
  isplitl [H5]; · iexists _; iexact H5
  isplitl [H6]; · iexists _; iexact H6
  iintro ⟨H0, H1, H2, H3, H4, H5, H6⟩
  iframe

theorem body_obligation0 (c : Dev nD) : BodyObligation (dat0 (F := F) V c) (defs₀ (F := F)) Variants.none () Set.univ := fun t => by
  rw [bigSep_W0, bigSep_W0]
  exact sound_body0 V c t

end

end Cert.Kernel.Gen

end
-- ==== Proof.WordLaunch1Conds.lean ====
import proofs.«403715_j42039139893702_3_alg».proof.Proof.Gen.Kernel.Launch
import proofs.«403715_j42039139893702_3_alg».proof.Proof.Gen.Kernel.Skeleton
import proofs.«403715_j42039139893702_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev condF (i : grid1.Coords) : Prop := (Scalar.cmpi .ne (Scalar.extui (Scalar.cmpi .eq (BitVec.ofNat 32 (i 2).val) 0#32)) 0#32) = 1#1

theorem hcondF : ∀ t : Fin cfg1.N, condF (grid1.coords t) ↔ t.val % 8 = 0 :=
  (by decide +kernel : ∀ t : Fin grid1.N, condF (grid1.coords t) ↔ t.val % 8 = 0)

abbrev condL (i : grid1.Coords) : Prop := k1_cond2 i = 1#1

theorem hcondL : ∀ t : Fin cfg1.N, condL (grid1.coords t) ↔ t.val % 8 = 7 :=
  (by decide +kernel : ∀ t : Fin grid1.N, condL (grid1.coords t) ↔ t.val % 8 = 7)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel

theorem idleAt1_3 : ∀ t : Fin cfg1.N, ¬condL (grid1.coords t) → cfg1.idle 3 (grid1.coords t) = true := by decide +kernel
theorem noFlush1_3 : ∀ t : Fin cfg1.N, ¬condL (grid1.coords t) → (cfg1.win 3).flush t = false := by decide +kernel
theorem liveAt1_3 : ∀ t : Fin cfg1.N, condL (grid1.coords t) → cfg1.idle 3 (grid1.coords t) = false := by decide +kernel

abbrev ms1_0 (t : Fin cfg1.N) : Memref sig .tc .vmem S1x1024x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x64 .bf16 := win1_3.stage (cfg1.slots t 3)
abbrev hs1_3 (t : Fin cfg1.N) : (ms1_3 t).IsWhole := hstage1_3 ((cfg1.slots t 3).cast nbuf1_3)

abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x64 .f32 := Memref.whole cc1_scratch2

abbrev VS1_0 : View sig .tc .vmem S1024x1 .f32 := scM1_0.view
abbrev VS1_1 : View sig .tc .vmem S1024x1 .f32 := scM1_1.view
abbrev VS1_2 : View sig .tc .vmem S1024x64 .f32 := scM1_2.view
abbrev VO1_3 : View sig .tc .vmem S1x1024x64 .bf16 := (Memref.whole cc1_stg3_0 : Memref sig .tc .vmem S1x1024x64 .bf16).view

end Cert.Kernel.Gen

end
-- ==== Proof.WordLaunch1RunA.lean ====
import proofs.«403715_j42039139893702_3_alg».proof.Proof.WordLaunch1Conds

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun1_A (c : Dev nD) (i : grid1.Coords) (arg3 : Memref sig .tc .vmem S1x1024x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x1024x64 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hcF : condF i) (hcL : ¬condL i)
    (x0 : Vec F S1x1024x64 .bf16) (x1 : Vec F S1x512x64 .bf16) (x2 : Vec F S1x512x64 .bf16) :
    Σ' (LS0 : List (View.Piece (Elt F) S1024x1 .f32)) (LS1 : List (View.Piece (Elt F) S1024x1 .f32)), { LS2 : List (View.Piece (Elt F) S1024x64 .f32) //
      ∀ (xi3 : Vec F S1x1024x64 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, fun xi3 E K => ?run⟩
  case run =>
    simp only [cc1__attn_kernel_eq_skeleton]; unfold cc1__attn_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hcF | exact hcL)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Gen

end
-- ==== Proof.WordLaunch1RunB.lean ====
import proofs.«403715_j42039139893702_3_alg».proof.Proof.WordLaunch1RunA

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun1_B (c : Dev nD) (i : grid1.Coords) (arg3 : Memref sig .tc .vmem S1x1024x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x1024x64 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hcF : ¬condF i) (hcL : ¬condL i)
    (x0 : Vec F S1x1024x64 .bf16) (x1 : Vec F S1x512x64 .bf16) (x2 : Vec F S1x512x64 .bf16)
    (xs0 : Vec F S1024x1 .f32) (xs1 : Vec F S1024x1 .f32) (xs2 : Vec F S1024x64 .f32) :
    Σ' (LS0 : List (View.Piece (Elt F) S1024x1 .f32)) (LS1 : List (View.Piece (Elt F) S1024x1 .f32)), { LS2 : List (View.Piece (Elt F) S1024x64 .f32) //
      ∀ (xi3 : Vec F S1x1024x64 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, fun xi3 E K => ?run⟩
  case run =>
    simp only [cc1__attn_kernel_eq_skeleton]; unfold cc1__attn_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg7.eq_unread hfs0; obtain rfl := harg8.eq_unread hfs1; obtain rfl := harg9.eq_unread hfs2
    sl_exec (disch := first | exact hcF | exact hcL)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Gen

end
-- ==== Proof.WordLaunch1RunC.lean ====
import proofs.«403715_j42039139893702_3_alg».proof.Proof.WordLaunch1RunB

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun1_C (c : Dev nD) (i : grid1.Coords) (arg3 : Memref sig .tc .vmem S1x1024x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x1024x64 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hcF : ¬condF i) (hcL : condL i)
    (x0 : Vec F S1x1024x64 .bf16) (x1 : Vec F S1x512x64 .bf16) (x2 : Vec F S1x512x64 .bf16)
    (xs0 : Vec F S1024x1 .f32) (xs1 : Vec F S1024x1 .f32) (xs2 : Vec F S1024x64 .f32) :
    Σ' (L3 : List (View.Piece (Elt F) S1x1024x64 .bf16)) (LS0 : List (View.Piece (Elt F) S1024x1 .f32)) (LS1 : List (View.Piece (Elt F) S1024x1 .f32)), { LS2 : List (View.Piece (Elt F) S1024x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, ?_, fun E K => ?run⟩
  case run =>
    simp only [cc1__attn_kernel_eq_skeleton]; unfold cc1__attn_kernel_skel
    simp only [k1_part1_eq_skeleton]; unfold k1_part1_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | exact hcF | exact hcL)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.Kernel.Gen

end
-- ==== Proof.WordLaunch1.lean ====
import proofs.«403715_j42039139893702_3_alg».proof.Proof.WordLaunch1RunC

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))
end

section
variable (c : Dev nD) (i : grid1.Coords) (arg3 : Memref sig .tc .vmem S1x1024x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x1024x64 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole)

section
variable (hcF : condF i) (hcL : ¬condL i) (x0 : Vec F S1x1024x64 .bf16) (x1 x2 : Vec F S1x512x64 .bf16)

theorem scover1_A_0 (y : S1024x1.Idx) : ∃ pc ∈ (kernelRun1_A c i arg3 harg3 arg4 harg4 arg5 harg5 arg6 harg6 arg7 harg7 arg8 harg8 arg9 harg9 hcF hcL x0 x1 x2).1, y ∈ pc.1.set :=
  View.cover_of_tiledL _ S1024x1.size (by sl_kernel_rfl) y
theorem scover1_A_1 (y : S1024x1.Idx) : ∃ pc ∈ (kernelRun1_A c i arg3 harg3 arg4 harg4 arg5 harg5 arg6 harg6 arg7 harg7 arg8 harg8 arg9 harg9 hcF hcL x0 x1 x2).2.1, y ∈ pc.1.set :=
  View.cover_of_tiledL _ S1024x1.size (by sl_kernel_rfl) y
theorem scover1_A_2 (y : S1024x64.Idx) : ∃ pc ∈ (kernelRun1_A c i arg3 harg3 arg4 harg4 arg5 harg5 arg6 harg6 arg7 harg7 arg8 harg8 arg9 harg9 hcF hcL x0 x1 x2).2.2.1, y ∈ pc.1.set :=
  View.cover_of_tiledL _ S1024x64.size (by sl_kernel_rfl) y

/-- What the first-key-block case leaves in the running maximum, sum and weighted sum: each buffer's pieces read back. -/
def sout1_A : Vec F S1024x1 .f32 × Vec F S1024x1 .f32 × Vec F S1024x64 .f32 :=
  (VS1_0.read (Elt F) (VS1_0.writes (Elt F) VS1_0.junk (kernelRun1_A c i arg3 harg3 arg4 harg4 arg5 harg5 arg6 harg6 arg7 harg7 arg8 harg8 arg9 harg9 hcF hcL x0 x1 x2).1), VS1_1.read (Elt F) (VS1_1.writes (Elt F) VS1_1.junk (kernelRun1_A c i arg3 harg3 arg4 harg4 arg5 harg5 arg6 harg6 arg7 harg7 arg8 harg8 arg9 harg9 hcF hcL x0 x1 x2).2.1), VS1_2.read (Elt F) (VS1_2.writes (Elt F) VS1_2.junk (kernelRun1_A c i arg3 harg3 arg4 harg4 arg5 harg5 arg6 harg6 arg7 harg7 arg8 harg8 arg9 harg9 hcF hcL x0 x1 x2).2.2.1))
end

section
variable (hcF : ¬condF i) (hcL : ¬condL i) (x0 : Vec F S1x1024x64 .bf16) (x1 x2 : Vec F S1x512x64 .bf16) (xs0 xs1 : Vec F S1024x1 .f32) (xs2 : Vec F S1024x64 .f32)

theorem scover1_B_0 (y : S1024x1.Idx) : ∃ pc ∈ (kernelRun1_B c i arg3 harg3 arg4 harg4 arg5 harg5 arg6 harg6 arg7 harg7 arg8 harg8 arg9 harg9 hcF hcL x0 x1 x2 xs0 xs1 xs2).1, y ∈ pc.1.set :=
  View.cover_of_tiledL _ S1024x1.size (by sl_kernel_rfl) y
theorem scover1_B_1 (y : S1024x1.Idx) : ∃ pc ∈ (kernelRun1_B c i arg3 harg3 arg4 harg4 arg5 harg5 arg6 harg6 arg7 harg7 arg8 harg8 arg9 harg9 hcF hcL x0 x1 x2 xs0 xs1 xs2).2.1, y ∈ pc.1.set :=
  View.cover_of_tiledL _ S1024x1.size (by sl_kernel_rfl) y
theorem scover1_B_2 (y : S1024x64.Idx) : ∃ pc ∈ (kernelRun1_B c i arg3 harg3 arg4 harg4 arg5 harg5 arg6 harg6 arg7 harg7 arg8 harg8 arg9 harg9 hcF hcL x0 x1 x2 xs0 xs1 xs2).2.2.1, y ∈ pc.1.set :=
  View.cover_of_tiledL _ S1024x64.size (by sl_kernel_rfl) y

/-- The same for a middle key block, run on the buffers' earlier contents. -/
def sout1_B : Vec F S1024x1 .f32 × Vec F S1024x1 .f32 × Vec F S1024x64 .f32 :=
  (VS1_0.read (Elt F) (VS1_0.writes (Elt F) VS1_0.junk (kernelRun1_B c i arg3 harg3 arg4 harg4 arg5 harg5 arg6 harg6 arg7 harg7 arg8 harg8 arg9 harg9 hcF hcL x0 x1 x2 xs0 xs1 xs2).1), VS1_1.read (Elt F) (VS1_1.writes (Elt F) VS1_1.junk (kernelRun1_B c i arg3 harg3 arg4 harg4 arg5 harg5 arg6 harg6 arg7 harg7 arg8 harg8 arg9 harg9 hcF hcL x0 x1 x2 xs0 xs1 xs2).2.1), VS1_2.read (Elt F) (VS1_2.writes (Elt F) VS1_2.junk (kernelRun1_B c i arg3 harg3 arg4 harg4 arg5 harg5 arg6 harg6 arg7 harg7 arg8 harg8 arg9 harg9 hcF hcL x0 x1 x2 xs0 xs1 xs2).2.2.1))
end

section
variable (hcF : ¬condF i) (hcL : condL i) (x0 : Vec F S1x1024x64 .bf16) (x1 x2 : Vec F S1x512x64 .bf16) (xs0 xs1 : Vec F S1024x1 .f32) (xs2 : Vec F S1024x64 .f32)

theorem cover1_C_3 (y : S1x1024x64.Idx) : ∃ pc ∈ (kernelRun1_C c i arg3 harg3 arg4 harg4 arg5 harg5 arg6 harg6 arg7 harg7 arg8 harg8 arg9 harg9 hcF hcL x0 x1 x2 xs0 xs1 xs2).1, y ∈ pc.1.set :=
  View.cover_of_tiledL _ S1x1024x64.size (by sl_kernel_rfl) y
theorem scover1_C_0 (y : S1024x1.Idx) : ∃ pc ∈ (kernelRun1_C c i arg3 harg3 arg4 harg4 arg5 harg5 arg6 harg6 arg7 harg7 arg8 harg8 arg9 harg9 hcF hcL x0 x1 x2 xs0 xs1 xs2).2.1, y ∈ pc.1.set :=
  View.cover_of_tiledL _ S1024x1.size (by sl_kernel_rfl) y
theorem scover1_C_1 (y : S1024x1.Idx) : ∃ pc ∈ (kernelRun1_C c i arg3 harg3 arg4 harg4 arg5 harg5 arg6 harg6 arg7 harg7 arg8 harg8 arg9 harg9 hcF hcL x0 x1 x2 xs0 xs1 xs2).2.2.1, y ∈ pc.1.set :=
  View.cover_of_tiledL _ S1024x1.size (by sl_kernel_rfl) y
theorem scover1_C_2 (y : S1024x64.Idx) : ∃ pc ∈ (kernelRun1_C c i arg3 harg3 arg4 harg4 arg5 harg5 arg6 harg6 arg7 harg7 arg8 harg8 arg9 harg9 hcF hcL x0 x1 x2 xs0 xs1 xs2).2.2.2.1, y ∈ pc.1.set :=
  View.cover_of_tiledL _ S1024x64.size (by sl_kernel_rfl) y

/-- The last key block also stores the output block: that block first, then the three buffers. -/
def sout1_C : Vec F S1x1024x64 .bf16 × Vec F S1024x1 .f32 × Vec F S1024x1 .f32 × Vec F S1024x64 .f32 :=
  (VO1_3.read (Elt F) (VO1_3.writes (Elt F) VO1_3.junk (kernelRun1_C c i arg3 harg3 arg4 harg4 arg5 harg5 arg6 harg6 arg7 harg7 arg8 harg8 arg9 harg9 hcF hcL x0 x1 x2 xs0 xs1 xs2).1), VS1_0.read (Elt F) (VS1_0.writes (Elt F) VS1_0.junk (kernelRun1_C c i arg3 harg3 arg4 harg4 arg5 harg5 arg6 harg6 arg7 harg7 arg8 harg8 arg9 harg9 hcF hcL x0 x1 x2 xs0 xs1 xs2).2.1), VS1_1.read (Elt F) (VS1_1.writes (Elt F) VS1_1.junk (kernelRun1_C c i arg3 harg3 arg4 harg4 arg5 harg5 arg6 harg6 arg7 harg7 arg8 harg8 arg9 harg9 hcF hcL x0 x1 x2 xs0 xs1 xs2).2.2.1), VS1_2.read (Elt F) (VS1_2.writes (Elt F) VS1_2.junk (kernelRun1_C c i arg3 harg3 arg4 harg4 arg5 harg5 arg6 harg6 arg7 harg7 arg8 harg8 arg9 harg9 hcF hcL x0 x1 x2 xs0 xs1 xs2).2.2.2.1))
end
end

/-- Stands for the output block at the points that do not store it; nothing reads it. -/
def idleOut1 : Vec F S1x1024x64 .bf16 := VO1_3.read (Elt F) VO1_3.junk

section
variable (V : (c : Dev nD) → (b : Ref sig .tc) → Buf (Elt F) ((c : Thread nD τ).loc b))

/-- Each case at grid point `t`: on the launch's own memrefs, the point's three input blocks, and (after the first key block) the buffers `p` the point before left. -/
abbrev atA (c : Dev nD) (t : Fin cfg1.N) (hF : t.val % 8 = 0) (hL : ¬t.val % 8 = 7) : Vec F S1024x1 .f32 × Vec F S1024x1 .f32 × Vec F S1024x64 .f32 :=
  sout1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcondF t).mpr hF) (fun h => hL ((hcondL t).mp h)) (iblk1 V c 0 t) (iblk1 V c 1 t) (iblk1 V c 2 t)
abbrev atB (c : Dev nD) (t : Fin cfg1.N) (hF : ¬t.val % 8 = 0) (hL : ¬t.val % 8 = 7) (p : Vec F S1024x1 .f32 × Vec F S1024x1 .f32 × Vec F S1024x64 .f32) : Vec F S1024x1 .f32 × Vec F S1024x1 .f32 × Vec F S1024x64 .f32 :=
  sout1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => hF ((hcondF t).mp h)) (fun h => hL ((hcondL t).mp h)) (iblk1 V c 0 t) (iblk1 V c 1 t) (iblk1 V c 2 t) p.1 p.2.1 p.2.2
abbrev atC (c : Dev nD) (t : Fin cfg1.N) (hF : ¬t.val % 8 = 0) (hL : t.val % 8 = 7) (p : Vec F S1024x1 .f32 × Vec F S1024x1 .f32 × Vec F S1024x64 .f32) : Vec F S1x1024x64 .bf16 × Vec F S1024x1 .f32 × Vec F S1024x1 .f32 × Vec F S1024x64 .f32 :=
  sout1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => hF ((hcondF t).mp h)) ((hcondL t).mpr hL) (iblk1 V c 0 t) (iblk1 V c 1 t) (iblk1 V c 2 t) p.1 p.2.1 p.2.2

/-- The output block and the three buffers after point `n`: a first key block starts afresh, any other continues from the point before. -/
def outsAt1 (c : Dev nD) : (n : ℕ) → n < cfg1.N → Vec F S1x1024x64 .bf16 × Vec F S1024x1 .f32 × Vec F S1024x1 .f32 × Vec F S1024x64 .f32
  | 0, hn => (idleOut1, atA V c ⟨0, hn⟩ (Nat.zero_mod _) (by show ¬(0 % 8 = 7); omega))
  | n + 1, hn =>
    if hF : (n + 1) % 8 = 0 then (idleOut1, atA V c ⟨n + 1, hn⟩ hF (by show ¬(n + 1) % 8 = 7; omega))
    else if hL : (n + 1) % 8 = 7 then atC V c ⟨n + 1, hn⟩ hF hL (outsAt1 c n (Nat.lt_of_succ_lt hn)).2
    else (idleOut1, atB V c ⟨n + 1, hn⟩ hF hL (outsAt1 c n (Nat.lt_of_succ_lt hn)).2)

abbrev prevLt (t : Fin cfg1.N) : t.val - 1 < cfg1.N := Nat.lt_of_le_of_lt (Nat.sub_le _ _) t.isLt

theorem outsAt1_A (c : Dev nD) (t : Fin cfg1.N) (hF : t.val % 8 = 0) (hL : ¬t.val % 8 = 7) :
    outsAt1 V c t.val t.isLt = (idleOut1, atA V c t hF hL) := by
  obtain ⟨n, hn⟩ := t
  cases n with
  | zero => exact rfl
  | succ n => exact (dif_pos hF).trans rfl

theorem outsAt1_B (c : Dev nD) (t : Fin cfg1.N) (hF : ¬t.val % 8 = 0) (hL : ¬t.val % 8 = 7) :
    outsAt1 V c t.val t.isLt = (idleOut1, atB V c t hF hL (outsAt1 V c (t.val - 1) (prevLt t)).2) := by
  obtain ⟨n, hn⟩ := t
  cases n with
  | zero => exact absurd (Nat.zero_mod _) hF
  | succ n => exact (dif_neg hF).trans ((dif_neg hL).trans rfl)

theorem outsAt1_C (c : Dev nD) (t : Fin cfg1.N) (hF : ¬t.val % 8 = 0) (hL : t.val % 8 = 7) :
    outsAt1 V c t.val t.isLt = atC V c t hF hL (outsAt1 V c (t.val - 1) (prevLt t)).2 := by
  obtain ⟨n, hn⟩ := t
  cases n with
  | zero => exact absurd (Nat.zero_mod _) hF
  | succ n => exact (dif_neg hF).trans ((dif_pos hL).trans rfl)

/-- Buffer `b`, whole, at some contents. -/
def someBuf (c : Dev nD) (b : Ref sig .tc) : sProp 𝕄 := iprop(∃ f : Buf (Elt F) ((c : Thread nD τ).loc b), ((c : Thread nD τ).loc b) ↦{fullShare} f)

def restWith (c : Dev nD) (X0 X1 X2 : sProp 𝕄) : sProp 𝕄 :=
  iprop(someBuf c cc0_stg0_0 ∗ someBuf c cc0_stg0_1 ∗ someBuf c cc0_stg1_0 ∗ someBuf c cc0_stg2_0 ∗ someBuf c cc0_stg3_0 ∗ someBuf c cc0_stg4_0 ∗ someBuf c cc0_stg4_1 ∗ someBuf c cc0_stg5_0 ∗ someBuf c cc0_stg5_1 ∗ someBuf c cc0_stg6_0 ∗ someBuf c cc0_stg6_1 ∗ X0 ∗ X1 ∗ X2 ∗ someBuf c cc2_stg0_0 ∗ someBuf c cc2_stg0_1 ∗ someBuf c cc2_stg1_0 ∗ someBuf c cc2_stg2_0 ∗ someBuf c cc2_stg2_1)

theorem restWith_swap (c : Dev nD) (X0 X1 X2 Y0 Y1 Y2 : sProp 𝕄) :
    restWith (F := F) c X0 X1 X2 ⊢ iprop(X0 ∗ X1 ∗ X2 ∗ (iprop(Y0 ∗ Y1 ∗ Y2) -∗ restWith (F := F) c Y0 Y1 Y2)) := by
  unfold restWith
  iintro ⟨H1, H2, H3, H4, H5, H6, H7, H8, H9, H10, H11, HS0, HS1, HS2, H15, H16, H17, H18, H19⟩
  iframe HS0 HS1 HS2
  iintro ⟨HY0, HY1, HY2⟩
  iframe

theorem PhiA1_eq (c : Dev nD) :
    (Pipeline.ΦA spec1 c : sProp 𝕄)
      = iprop(restWith (F := F) c iprop(∃ d, owns (c : Thread nD τ) scM1_0 fullShare d) iprop(∃ d, owns (c : Thread nD τ) scM1_1 fullShare d)
          iprop(∃ d, owns (c : Thread nD τ) scM1_2 fullShare d) ∗ (∃ r, prngReg c r)) := by
  unfold Pipeline.ΦA restWith someBuf; rw [scopedRest1_eq]; simp only [scM1_0, scM1_1, scM1_2, owns_whole]; try rfl

def PhiS1 (c : Dev nD) : (n : ℕ) → n ≤ cfg1.N → sProp 𝕄
  | 0, _ => Pipeline.ΦA spec1 c
  | n + 1, hn => iprop(restWith (F := F) c (owns (c : Thread nD τ) scM1_0 fullShare (outsAt1 V c n hn).2.1)
      (owns (c : Thread nD τ) scM1_1 fullShare (outsAt1 V c n hn).2.2.1) (owns (c : Thread nD τ) scM1_2 fullShare (outsAt1 V c n hn).2.2.2)
      ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(restWith (F := F) c (owns (c : Thread nD τ) scM1_0 fullShare (outsAt1 V c n hn).2.1)
      (owns (c : Thread nD τ) scM1_1 fullShare (outsAt1 V c n hn).2.2.1) (owns (c : Thread nD τ) scM1_2 fullShare (outsAt1 V c n hn).2.2.2)
      ∗ (∃ r, prngReg c r)) := rfl

theorem PhiS1_pos (c : Dev nD) (n : ℕ) (h : n ≤ cfg1.N) (hz : n ≠ 0) :
    PhiS1 V c n h = iprop(restWith (F := F) c (owns (c : Thread nD τ) scM1_0 fullShare (outsAt1 V c (n - 1) (by omega)).2.1)
      (owns (c : Thread nD τ) scM1_1 fullShare (outsAt1 V c (n - 1) (by omega)).2.2.1) (owns (c : Thread nD τ) scM1_2 fullShare (outsAt1 V c (n - 1) (by omega)).2.2.2)
      ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

/-- What the running buffers hold can be forgotten: at any position the invariant gives the launch's untouched rest. -/
theorem PhiS1_weak (c : Dev nD) (n : ℕ) (h : n ≤ cfg1.N) :
    PhiS1 V c n h ⊢ iprop(restWith (F := F) c iprop(∃ d, owns (c : Thread nD τ) scM1_0 fullShare d) iprop(∃ d, owns (c : Thread nD τ) scM1_1 fullShare d) iprop(∃ d, owns (c : Thread nD τ) scM1_2 fullShare d) ∗ (∃ r, prngReg c r)) := by
  cases n with
  | zero =>
    rw [← PhiA1_eq]
    try exact Idealize.SL.BI.Entails.refl _
  | succ n =>
    rw [PhiS1_succ]
    iintro ⟨HR, Hg⟩
    ihave HR' := (restWith_swap (F := F) c _ _ _ iprop(∃ d, owns (c : Thread nD τ) scM1_0 fullShare d) iprop(∃ d, owns (c : Thread nD τ) scM1_1 fullShare d) iprop(∃ d, owns (c : Thread nD τ) scM1_2 fullShare d)) $$ HR
    icases HR' with ⟨HS0, HS1, HS2, Hback⟩
    iframe Hg
    iapply Hback
    isplitl [HS0]; · iexists _; iexact HS0
    isplitl [HS1]; · iexists _; iexact HS1
    iexists _; iexact HS2

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The body at any point: the two conditions' closed forms say which case the point is in; the invariant lends the three running buffers at what the point before left and takes them back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  by_cases hF : t.val % 8 = 0
  · have hL : ¬t.val % 8 = 7 := by omega
    rw [Dat.leavesExact_idle (dat1 V c) 3 t (idleAt1_3 t (fun h => hL ((hcondL t).mp h))) (noFlush1_3 t (fun h => hL ((hcondL t).mp h)))]
    rw [outsAt1_A V c t hF hL]
    unfold atA sout1_A; dsimp only
    rw [PhiS1_castSucc V c t]
    iintro ⟨HP, Ho, ⟨%d0, H0⟩, ⟨%d1, H1⟩, ⟨%d2, H2⟩, ⟨%d3, H3⟩⟩
    ihave HP' := (PhiS1_weak V c _ _) $$ HP
    icases HP' with ⟨HR, Hg⟩
    ihave HR' := (restWith_swap (F := F) c _ _ _ _ _ _) $$ HR
    icases HR' with ⟨HS0, HS1, HS2, Hback⟩
    iapply ((kernelRun1_A c (grid1.coords t) _ _ _ _ _ _ _ _ _ _ _ _ _ _ ((hcondF t).mpr hF) (fun h => hL ((hcondL t).mp h)) (iblk1 V c 0 t) (iblk1 V c 1 t) (iblk1 V c 2 t)).2.2.2 _ Set.univ _)
    iframe H0 H1 H2
    isplitl [H3]; · iexact H3
    isplitl [HS0]; · iexact HS0
    isplitl [HS1]; · iexact HS1
    isplitl [HS2]; · iexact HS2
    iintro ⟨H0, H1, H2, H3, ⟨%es0, HS0⟩, ⟨%es1, HS1⟩, ⟨%es2, HS2⟩⟩
    iframe Hg Ho H0 H1 H2
    isplitr [H3]
    · iapply Hback
      isplitl [HS0]
      · unfold owns; iexists _; isplitr
        swap; · iexact HS0
        ipureintro; exact View.read_writes_of_cover _ _ _ _ _ (scover1_A_0 c _ _ _ _ _ _ _ _ _ _ _ _ _ _ _ _ _ _ _ _)
      isplitl [HS1]
      · unfold owns; iexists _; isplitr
        swap; · iexact HS1
        ipureintro; exact View.read_writes_of_cover _ _ _ _ _ (scover1_A_1 c _ _ _ _ _ _ _ _ _ _ _ _ _ _ _ _ _ _ _ _)
      unfold owns; iexists _; isplitr
      swap; · iexact HS2
      ipureintro; exact View.read_writes_of_cover _ _ _ _ _ (scover1_A_2 c _ _ _ _ _ _ _ _ _ _ _ _ _ _ _ _ _ _ _ _)
    iexists _; iexact H3
  · have hz : t.val ≠ 0 := fun h => hF (by rw [h])
    by_cases hL : t.val % 8 = 7
    · rw [show (dat1 V c).leavesExact 3 t = owns (c : Thread nD τ) (ms1_3 t) fullShare ((dat1 V c).after 3 t) from by
          unfold Dat.leavesExact; rw [liveAt1_3 t ((hcondL t).mpr hL)], after1_3]
      rw [outsAt1_C V c t hF hL]
      unfold atC sout1_C; dsimp only
      rw [PhiS1_castSucc V c t, PhiS1_pos V c _ _ hz]
      iintro ⟨⟨HR, Hg⟩, Ho, ⟨%d0, H0⟩, ⟨%d1, H1⟩, ⟨%d2, H2⟩, ⟨%d3, H3⟩⟩
      ihave HR' := (restWith_swap (F := F) c _ _ _ _ _ _) $$ HR
      icases HR' with ⟨HS0, HS1, HS2, Hback⟩
      iapply ((kernelRun1_C c (grid1.coords t) _ _ _ _ _ _ _ _ _ _ _ _ _ _ (fun h => hF ((hcondF t).mp h)) ((hcondL t).mpr hL) (iblk1 V c 0 t) (iblk1 V c 1 t) (iblk1 V c 2 t) _ _ _).2.2.2.2 Set.univ _)
      iframe H0 H1 H2
      isplitl [H3]; · iexists _; iexact H3
      isplitl [HS0]; · iexact HS0
      isplitl [HS1]; · iexact HS1
      isplitl [HS2]; · iexact HS2
      iintro ⟨H0, H1, H2, ⟨%e3, H3⟩, ⟨%es0, HS0⟩, ⟨%es1, HS1⟩, ⟨%es2, HS2⟩⟩
      iframe Hg Ho H0 H1 H2
      isplitr [H3]
      · iapply Hback
        isplitl [HS0]
        · unfold owns; iexists _; isplitr
          swap; · iexact HS0
          ipureintro; exact View.read_writes_of_cover _ _ _ _ _ (scover1_C_0 c _ _ _ _ _ _ _ _ _ _ _ _ _ _ _ _ _ _ _ _ _ _ _)
        isplitl [HS1]
        · unfold owns; iexists _; isplitr
          swap; · iexact HS1
          ipureintro; exact View.read_writes_of_cover _ _ _ _ _ (scover1_C_1 c _ _ _ _ _ _ _ _ _ _ _ _ _ _ _ _ _ _ _ _ _ _ _)
        unfold owns; iexists _; isplitr
        swap; · iexact HS2
        ipureintro; exact View.read_writes_of_cover _ _ _ _ _ (scover1_C_2 c _ _ _ _ _ _ _ _ _ _ _ _ _ _ _ _ _ _ _ _ _ _ _)
      unfold owns; iexists _; isplitr
      swap; · iexact H3
      ipureintro; exact View.read_writes_of_cover _ _ _ _ _ (cover1_C_3 c _ _ _ _ _ _ _ _ _ _ _ _ _ _ _ _ _ _ _ _ _ _ _)
    · rw [Dat.leavesExact_idle (dat1 V c) 3 t (idleAt1_3 t (fun h => hL ((hcondL t).mp h))) (noFlush1_3 t (fun h => hL ((hcondL t).mp h)))]
      rw [outsAt1_B V c t hF hL]
      unfold atB sout1_B; dsimp only
      rw [PhiS1_castSucc V c t, PhiS1_pos V c _ _ hz]
      iintro ⟨⟨HR, Hg⟩, Ho, ⟨%d0, H0⟩, ⟨%d1, H1⟩, ⟨%d2, H2⟩, ⟨%d3, H3⟩⟩
      ihave HR' := (restWith_swap (F := F) c _ _ _ _ _ _) $$ HR
      icases HR' with ⟨HS0, HS1, HS2, Hback⟩
      iapply ((kernelRun1_B c (grid1.coords t) _ _ _ _ _ _ _ _ _ _ _ _ _ _ (fun h => hF ((hcondF t).mp h)) (fun h => hL ((hcondL t).mp h)) (iblk1 V c 0 t) (iblk1 V c 1 t) (iblk1 V c 2 t) _ _ _).2.2.2 _ Set.univ _)
      iframe H0 H1 H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      iframe Hg Ho H0 H1 H2
      isplitr [H3]
      · iapply Hback
        isplitl [HS0]
        · unfold owns; iexists _; isplitr
          swap; · iexact HS0
          ipureintro; exact View.read_writes_of_cover _ _ _ _ _ (scover1_B_0 c _ _ _ _ _ _ _ _ _ _ _ _ _ _ _ _ _ _ _ _ _ _ _)
        isplitl [HS1]
        · unfold owns; iexists _; isplitr
          swap; · iexact HS1
          ipureintro; exact View.read_writes_of_cover _ _ _ _ _ (scover1_B_1 c _ _ _ _ _ _ _ _ _ _ _ _ _ _ _ _ _ _ _ _ _ _ _)
        unfold owns; iexists _; isplitr
        swap; · iexact HS2
        ipureintro; exact View.read_writes_of_cover _ _ _ _ _ (scover1_B_2 c _ _ _ _ _ _ _ _ _ _ _ _ _ _ _ _ _ _ _ _ _ _ _)
      iexists _; iexact H3

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem Phi_out1 (c : Dev nD) (t : Fin (cfg1.N + 1)) : (dat1 V c).Φ t ⊢ Pipeline.ΦA spec1 c := by
  rw [show (dat1 V c).Φ t = PhiS1 V c t.val (Nat.le_of_lt_succ t.isLt) from rfl, PhiA1_eq]
  exact PhiS1_weak V c _ _

theorem hout1 (c : Dev nD) : (dat1 V c).Φ (Fin.last cfg1.N) ⊢ Pipeline.ΦA spec1 c := Phi_out1 V c _

end

end Cert.Kernel.Gen

end
-- ==== Proof.WordLaunch2.lean ====
import proofs.«403715_j42039139893702_3_alg».proof.Proof.Gen.Kernel.Launch
import proofs.«403715_j42039139893702_3_alg».proof.Proof.Gen.Kernel.Skeleton
import proofs.«403715_j42039139893702_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2a : Rect S1024x512 := Rect.unit (s := S1024x512) ![0, 0] S1024x512.size inb_S1024x512_S1024x512_0_0
abbrev r2w : Rect S512x256 := Rect.unit (s := S512x256) ![0, 0] S512x256.size inb_S512x256_S512x256_0_0
abbrev r2o : Rect S1024x256 := Rect.unit (s := S1024x256) ![0, 0] S1024x256.size inb_S1024x256_S1024x256_0_0

def out2_2 (a0 : Vec F S1024x512 .bf16) (w1 : Vec F S512x256 .bf16) : Vec F S1024x256 .f32 :=
  View.canon [⟨r2o, k2_pay1 (View.ld a0 r2a) (View.ld w1 r2w)⟩]

theorem cover2_o (p0 : Vec F S1024x256 .f32) (y : S1024x256.Idx) :
    ∃ pc ∈ ([⟨r2o, p0⟩] : List (View.Piece (Elt F) S1024x256 .f32)), y ∈ pc.1.set :=
  View.cover_of_tiled [⟨r2o, p0⟩] S1024x256.size (by rfl) y

set_option maxHeartbeats 2000000 in

theorem sound_kernel2 (c : Dev nD) (E : Set ℕ) (i : grid2.Coords)
    (arg1 : Memref sig .tc .vmem S1024x512 .bf16) (harg1 : arg1.IsWhole) (arg2 : Memref sig .tc .vmem S512x256 .bf16) (harg2 : arg2.IsWhole)
    (arg3 : Memref sig .tc .vmem S1024x256 .f32) (harg3 : arg3.IsWhole)
    (a0 : Vec F S1024x512 .bf16) (w1 : Vec F S512x256 .bf16) (K : PUnit → sProp 𝕄) :
    iprop(owns (c : Thread nD τ) arg1 fullShare a0 ∗ owns (c : Thread nD τ) arg2 fullShare w1
        ∗ (∃ d, owns (c : Thread nD τ) arg3 fullShare d)
        ∗ (iprop(owns (c : Thread nD τ) arg1 fullShare a0 ∗ owns (c : Thread nD τ) arg2 fullShare w1
            ∗ owns (c : Thread nD τ) arg3 fullShare (out2_2 a0 w1)) -∗ K ⟨⟩))
      ⊢ wp frame (wpE (defs₀ (F := F)) Variants.none c none) E (cc2__out_proj_kernel i arg1 harg1 arg2 harg2 arg3 harg3) K := by
  simp only [cc2__out_proj_kernel_eq_skeleton]; unfold cc2__out_proj_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_o _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  iframe H0 H1
  isplitl [H2]; · iexists _; iexact H2
  iintro ⟨H0, H1, H2⟩
  iframe

theorem body_obligation2 (c : Dev nD) : BodyObligation (dat2 (F := F) V c) (defs₀ (F := F)) Variants.none () Set.univ := fun t => by
  rw [bigSep_W2, bigSep_W2]
  exact sound_body2 V c t

end

end Cert.Kernel.Gen

end
-- ==== Proof.WordRun.lean ====
import proofs.«403715_j42039139893702_3_alg».proof.Proof.Gen.Kernel.Regions
import proofs.«403715_j42039139893702_3_alg».proof.Proof.WordLaunch0
import proofs.«403715_j42039139893702_3_alg».proof.Proof.WordLaunch1
import proofs.«403715_j42039139893702_3_alg».proof.Proof.WordLaunch2

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev U1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev U2 : (c : Dev nD) → (b : Ref sig .tc) → Buf (Elt F) ((c : Thread nD τ).loc b) := fun c b => W2 m ρ c b

abbrev W3 : Dev nD → Valuation τ sig (Elt F) := fun c => StableHlo.after hostOps1 (W2 m ρ c)
abbrev U3 : (c : Dev nD) → (b : Ref sig .tc) → Buf (Elt F) ((c : Thread nD τ).loc b) := fun c b => W3 m ρ c b

def W4 (c : Dev nD) : Valuation τ sig (Elt F) :=
  Pipeline.withArrays spec1 c (W3 m ρ c) fun w => (dat1 (U3 m ρ) c).arrAt w cfg1.N
theorem W4_arr (c : Dev nD) (w : Fin cfg1.W) :
    W4 m ρ c (Proc.devRef .tc (Pipeline.arrRef spec1 w)) = (dat1 (U3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev U4 : (c : Dev nD) → (b : Ref sig .tc) → Buf (Elt F) ((c : Thread nD τ).loc b) := fun c b => W4 m ρ c b

abbrev W5 : Dev nD → Valuation τ sig (Elt F) := fun c => StableHlo.after hostOps2 (W4 m ρ c)
abbrev U5 : (c : Dev nD) → (b : Ref sig .tc) → Buf (Elt F) ((c : Thread nD τ).loc b) := fun c b => W5 m ρ c b

def W6 (c : Dev nD) : Valuation τ sig (Elt F) :=
  Pipeline.withArrays spec2 c (W5 m ρ c) fun w => (dat2 (U5 m ρ) c).arrAt w cfg2.N
theorem W6_arr (c : Dev nD) (w : Fin cfg2.W) :
    W6 m ρ c (Proc.devRef .tc (Pipeline.arrRef spec2 w)) = (dat2 (U5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev U6 : (c : Dev nD) → (b : Ref sig .tc) → Buf (Elt F) ((c : Thread nD τ).loc b) := fun c b => W6 m ρ c b

abbrev W7 : Dev nD → Valuation τ sig (Elt F) := fun c => StableHlo.after hostOps3 (W6 m ρ c)

/-- A buffer that no host stretch writes and that is no launch's array ends as launched. -/
theorem W7_keep (c : Dev nD) (b : Ref sig .tc) (h0 : b ∉ hostOps0_W) (h1 : b ∉ hostOps1_W) (h2 : b ∉ hostOps2_W) (h3 : b ∉ hostOps3_W)
    (a0 : ∀ w, Pipeline.arrRef spec0 w ≠ b) (a1 : ∀ w, Pipeline.arrRef spec1 w ≠ b) (a2 : ∀ w, Pipeline.arrRef spec2 w ≠ b) :
    W7 m ρ c (Proc.devRef .tc b) = m ((c : Thread nD τ).loc b) :=
  calc W7 m ρ c (Proc.devRef .tc b)
    _ = W6 m ρ c (Proc.devRef .tc b) := StableHlo.after_of_writes_sub hostOps3 _ hostOps3_writes h3
    _ = W5 m ρ c (Proc.devRef .tc b) := W6_of_ne m ρ c b a2
    _ = W4 m ρ c (Proc.devRef .tc b) := StableHlo.after_of_writes_sub hostOps2 _ hostOps2_writes h2
    _ = W3 m ρ c (Proc.devRef .tc b) := W4_of_ne m ρ c b a1
    _ = W2 m ρ c (Proc.devRef .tc b) := StableHlo.after_of_writes_sub hostOps1 _ hostOps1_writes h1
    _ = W1 m ρ c (Proc.devRef .tc b) := W2_of_ne m ρ c b a0
    _ = W0 m ρ c (Proc.devRef .tc b) := StableHlo.after_of_writes_sub hostOps0 _ hostOps0_writes h0
    _ = m ((c : Thread nD τ).loc b) := rfl

def pdat3 : (p : Fin 3) → (c : Dev nD) → Dat τ (Elt F) Unit ℕ (UR sig nD τ) ℕ (Pipeline.pin (pcfgs (F := F)) adm p) c
  | ⟨0, _⟩ => fun c => dat0 (U1 m ρ) c
  | ⟨1, _⟩ => fun c => dat1 (U3 m ρ) c
  | ⟨2, _⟩ => fun c => dat2 (U5 m ρ) c
abbrev 𝒱r : Variants := Variants.none

abbrev Lr : GSem nD τ sig → Finset Unit := fun _ => ∅
abbrev lvr : GSem nD τ sig → Unit → ℕ := fun _ _ => 0

abbrev Rr (c : Dev nD) : sProp 𝕄 := iprop((∃ r, prngReg c r) ∗ ∃ W, owes (c : Thread nD τ) (0 : CellTallies nD τ sig Unit) W)

abbrev hsegr (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱r Lr lvr :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr

theorem mem_ucr (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tend (c : Dev nD) : sProp 𝕄 := iprop(StableHlo.held (c : Thread nD τ) (Pipeline.ucRefs τ sig) (W7 m ρ c) ∗ ∃ r, prngReg c r)

set_option backward.isDefEq.respectTransparency.types false in

def regn0 : Pipeline.RegionSeg (pcfgs (F := F)) adm (pdat3 m ρ) () defs₀ 𝒱r Lr lvr 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ Lr lvr 0 fun _ _ => rfl
  pre c := iprop(StableHlo.held (c : Thread nD τ) (Pipeline.ucRefs τ sig) (W1 m ρ c) ∗ Rr c)
  post c := iprop(StableHlo.held (c : Thread nD τ) (Pipeline.ucRefs τ sig) (W2 m ρ c) ∗ Rr c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm (pdat3 m ρ) launch0.win launch0.arr_whole c
      ((pdat3 m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat3 m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdat3 m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdat3 m ρ) ((pdat3 m ρ 0 c).share_full fun _ => rfl)
      (U1 m ρ c) (U2 m ρ c) ((pdat3 m ρ 0 c).arrAt · cfg0.N) (fun w => (W2_arr m ρ c w).symm)
      (fun b hb => W2_of_ne m ρ c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def regn1 : Pipeline.RegionSeg (pcfgs (F := F)) adm (pdat3 m ρ) () defs₀ 𝒱r Lr lvr 1 where
  win := launch1.win.to₀
  block_pos := launch1.block_pos
  stage_whole := launch1.stage_whole
  K := PEmpty
  osem k := k.elim
  ho := Pipeline.OwnSemFacts.none _
  hbody c := (body_obligation1 (U3 m ρ) c).loose
  hwaits := Pipeline.hwaits_of_owed_zero _ _ _ _ Lr lvr 1 fun _ _ => rfl
  pre c := iprop(StableHlo.held (c : Thread nD τ) (Pipeline.ucRefs τ sig) (W3 m ρ c) ∗ Rr c)
  post c := iprop(StableHlo.held (c : Thread nD τ) (Pipeline.ucRefs τ sig) (W4 m ρ c) ∗ Rr c)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) adm (pdat3 m ρ) launch1.win launch1.arr_whole c
      ((pdat3 m ρ 1 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (U3 m ρ) c
    unfold Pipeline.ΦA at h
    rw [show (pdat3 m ρ 1 c).Φ 0 = (dat1 (U3 m ρ) c).Φ 0 from rfl]
    iintro ⟨Hp, -, Hr⟩
    iapply h
    isplitl [Hr]; · iexact Hr
    iexact Hp
  hout c := by
    have h := hout1 (U3 m ρ) c
    unfold Pipeline.ΦA at h
    rw [Pipeline.ownSems0_none, show (pdat3 m ρ 1 c).Φ (Fin.last _) = (dat1 (U3 m ρ) c).Φ (Fin.last cfg1.N) from rfl]
    iintro HP
    ihave H := h $$ HP
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdat3 m ρ) ((pdat3 m ρ 1 c).share_full fun _ => rfl)
      (U3 m ρ c) (U4 m ρ c) ((pdat3 m ρ 1 c).arrAt · cfg1.N) (fun w => (W4_arr m ρ c w).symm)
      (fun b hb => W4_of_ne m ρ c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def regn2 : Pipeline.RegionSeg (pcfgs (F := F)) adm (pdat3 m ρ) () defs₀ 𝒱r Lr lvr 2 where
  win := launch2.win.to₀
  block_pos := launch2.block_pos
  stage_whole := launch2.stage_whole
  K := PEmpty
  osem k := k.elim
  ho := Pipeline.OwnSemFacts.none _
  hbody c := (body_obligation2 (U5 m ρ) c).loose
  hwaits := Pipeline.hwaits_of_owed_zero _ _ _ _ Lr lvr 2 fun _ _ => rfl
  pre c := iprop(StableHlo.held (c : Thread nD τ) (Pipeline.ucRefs τ sig) (W5 m ρ c) ∗ Rr c)
  post c := iprop(StableHlo.held (c : Thread nD τ) (Pipeline.ucRefs τ sig) (W6 m ρ c) ∗ Rr c)
  X c := iprop(∃ r, prngReg c r)
  Y c := iprop(∃ r, prngReg c r)
  Z c := Pipeline.unscopedRest (Ix := Unit) (Name := ℕ) (U := UR sig nD τ) (Lvl := ℕ) spec2 c (U5 m ρ c)
  hentry c := by
    rw [Pipeline.ownSems0_none]
    have hsplit := Pipeline.arrays_of_unscopedBufs (p := 2) (pcfgs (F := F)) adm (pdat3 m ρ) launch2.win launch2.arr_whole c
      ((pdat3 m ρ 2 c).share_full fun _ => rfl) (U5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat3 m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdat3 m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdat3 m ρ) ((pdat3 m ρ 2 c).share_full fun _ => rfl)
      (U5 m ρ c) (U6 m ρ c) ((pdat3 m ρ 2 c).arrAt · cfg2.N) (fun w => (W6_arr m ρ c w).symm)
      (fun b hb => W6_of_ne m ρ c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segsr : List (Pipeline.Seg (pcfgs (F := F)) adm (pdat3 m ρ) () defs₀ 𝒱r Lr lvr) :=
  [ .host (hsegr hostOps0 hostOps0_sub hostOps0_fresh (W0 m ρ)),
    .region (regn0 m ρ),
    .host (hsegr hostOps1 hostOps1_sub hostOps1_fresh (W2 m ρ)),
    .region (regn1 m ρ),
    .host (hsegr hostOps2 hostOps2_sub hostOps2_fresh (W4 m ρ)),
    .region (regn2 m ρ),
    .host (hsegr hostOps3 hostOps3_sub hostOps3_fresh (W6 m ρ)) ]

theorem main_runr (c : Dev nD) : main (F := F) c = Pipeline.Seg.run (segsr m ρ) := (main_chain c).trans (by chain_rfl)

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdat3 m ρ) () cellOf_inj emb₁ defs₀ 𝒱r Lr lvr m ρ main (segsr m ρ)
    (fun c Q => by rw [main_runr m ρ c])
    (by simp only [segsr, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rr c)) (Tₙ := Tend m ρ)
    (hch := ⟨fun _ => .rfl, fun _ => .rfl, fun _ => .rfl, fun _ => .rfl, fun _ => .rfl, fun _ => .rfl, fun _ => .rfl, fun c => by
      show (iprop(StableHlo.held (c : Thread nD τ) (Pipeline.ucRefs τ sig) (W7 m ρ c) ∗ Rr c) : sProp 𝕄)
        ⊢ iprop(Tend m ρ c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach Lr lvr fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-- The run with the result array named: it ends at the last boundary's contents, and the five argument arrays as launched. -/
theorem run_result : θ_run defs (onTc (τ := τ) (main (F := F))) ⟨m, fun _ => 0, ρ⟩ (fun r => ∀ c : Dev nD,
      r.2.mem ((c.tc : Thread nD τ).loc main_v26) = W7 m ρ c (Proc.devRef .tc main_v26)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨h c _ (mem_ucr main_v26 (by decide)),
     (h c _ (mem_ucr main_arg0 (by decide))).trans (W7_keep m ρ c main_arg0 (by decide) (by decide) (by decide) (by decide) (by decide) (by decide) (by decide)),
     (h c _ (mem_ucr main_arg1 (by decide))).trans (W7_keep m ρ c main_arg1 (by decide) (by decide) (by decide) (by decide) (by decide) (by decide) (by decide)),
     (h c _ (mem_ucr main_arg2 (by decide))).trans (W7_keep m ρ c main_arg2 (by decide) (by decide) (by decide) (by decide) (by decide) (by decide) (by decide)),
     (h c _ (mem_ucr main_arg3 (by decide))).trans (W7_keep m ρ c main_arg3 (by decide) (by decide) (by decide) (by decide) (by decide) (by decide) (by decide)),
     (h c _ (mem_ucr main_arg4 (by decide))).trans (W7_keep m ρ c main_arg4 (by decide) (by decide) (by decide) (by decide) (by decide) (by decide) (by decide))⟩) (run_all m ρ)

theorem frame_hand : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_result m ρ)

end Cert.Kernel.Gen

end
-- ==== Proof.Launch0.lean ====
import proofs.«403715_j42039139893702_3_alg».proof.Proof.Gen.KernelIdeal.Launch
import proofs.«403715_j42039139893702_3_alg».proof.Proof.Gen.KernelIdeal.Skeleton
import proofs.«403715_j42039139893702_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0x : Rect S1024x256 := Rect.unit (s := S1024x256) ![0, 0] S1024x256.size inb_S1024x256_S1024x256_0_0
abbrev r0w : Rect S256x512 := Rect.unit (s := S256x512) ![0, 0] S256x512.size inb_S256x512_S256x512_0_0
abbrev r0o : Rect S1024x512 := Rect.unit (s := S1024x512) ![0, 0] S1024x512.size inb_S1024x512_S1024x512_0_0

def out0_4 (x0 : Vec F S1024x256 .f32) (w1 : Vec F S256x512 .bf16) : Vec F S1024x512 .bf16 :=
  View.canon [⟨r0o, k0_pay2 (View.ld x0 r0x) (View.ld w1 r0w)⟩]
def out0_5 (x0 : Vec F S1024x256 .f32) (w2 : Vec F S256x512 .bf16) : Vec F S1024x512 .bf16 :=
  View.canon [⟨r0o, k0_pay3 (View.ld x0 r0x) (View.ld w2 r0w)⟩]
def out0_6 (x0 : Vec F S1024x256 .f32) (w3 : Vec F S256x512 .bf16) : Vec F S1024x512 .bf16 :=
  View.canon [⟨r0o, k0_pay4 (View.ld x0 r0x) (View.ld w3 r0w)⟩]

theorem cover0_o (p0 : Vec F S1024x512 .bf16) (y : S1024x512.Idx) :
    ∃ pc ∈ ([⟨r0o, p0⟩] : List (View.Piece (Elt F) S1024x512 .bf16)), y ∈ pc.1.set :=
  View.cover_of_tiled [⟨r0o, p0⟩] S1024x512.size (by rfl) y

set_option maxHeartbeats 2000000 in

theorem sound_kernel0 (c : Dev nD) (E : Set ℕ) (i : grid0.Coords)
    (arg1 : Memref sig .tc .vmem S1024x256 .f32) (harg1 : arg1.IsWhole) (arg2 : Memref sig .tc .vmem S256x512 .bf16) (harg2 : arg2.IsWhole)
    (arg3 : Memref sig .tc .vmem S256x512 .bf16) (harg3 : arg3.IsWhole) (arg4 : Memref sig .tc .vmem S256x512 .bf16) (harg4 : arg4.IsWhole)
    (arg5 : Memref sig .tc .vmem S1024x512 .bf16) (harg5 : arg5.IsWhole) (arg6 : Memref sig .tc .vmem S1024x512 .bf16) (harg6 : arg6.IsWhole)
    (arg7 : Memref sig .tc .vmem S1024x512 .bf16) (harg7 : arg7.IsWhole)
    (x0 : Vec F S1024x256 .f32) (w1 w2 w3 : Vec F S256x512 .bf16) (K : PUnit → sProp 𝕄) :
    iprop(owns (c : Thread nD τ) arg1 fullShare x0 ∗ owns (c : Thread nD τ) arg2 fullShare w1 ∗ owns (c : Thread nD τ) arg3 fullShare w2
        ∗ owns (c : Thread nD τ) arg4 fullShare w3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare w1 ∗ owns (c : Thread nD τ) arg3 fullShare w2
            ∗ owns (c : Thread nD τ) arg4 fullShare w3
            ∗ owns (c : Thread nD τ) arg5 fullShare (out0_4 x0 w1) ∗ owns (c : Thread nD τ) arg6 fullShare (out0_5 x0 w2)
            ∗ owns (c : Thread nD τ) arg7 fullShare (out0_6 x0 w3)) -∗ K ⟨⟩))
      ⊢ wp frame (wpE (defs₀ (F := F)) Variants.none c none) E (cc0__qkv_proj_kernel i arg1 harg1 arg2 harg2 arg3 harg3 arg4 harg4 arg5 harg5 arg6 harg6 arg7 harg7) K := by
  simp only [cc0__qkv_proj_kernel_eq_skeleton]; unfold cc0__qkv_proj_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_o _)
  isplitl [H6]
  · iexists _; isplitr
    swap; · iexact H6
    ipureintro
    exact View.read_writes_eq_canon _ _ _ (cover0_o _)
  iexists _; isplitr
  swap; · iexact H7
  ipureintro
  exact View.read_writes_eq_canon _ _ _ (cover0_o _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t)
    | ⟨6, _⟩ => out0_6 (iblk0 V c 0 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 0 t) (iblk0 V c 3 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  iframe H0 H1 H2 H3
  isplitl [H4]; · iexists _; iexact H4
  isplitl [H5]; · iexists _; iexact H5
  isplitl [H6]; · iexists _; iexact H6
  iintro ⟨H0, H1, H2, H3, H4, H5, H6⟩
  iframe

theorem body_obligation0 (c : Dev nD) : BodyObligation (dat0 (F := F) V c) (defs₀ (F := F)) Variants.none () Set.univ := fun t => by
  rw [bigSep_W0, bigSep_W0]
  exact sound_body0 V c t

end

end Cert.KernelIdeal.Gen

end
-- ==== Proof.Launch1Conds.lean ====
import proofs.«403715_j42039139893702_3_alg».proof.Proof.Gen.KernelIdeal.Launch
import proofs.«403715_j42039139893702_3_alg».proof.Proof.Gen.KernelIdeal.Skeleton
import proofs.«403715_j42039139893702_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev condF (i : grid1.Coords) : Prop := (Scalar.cmpi .ne (Scalar.extui (Scalar.cmpi .eq (BitVec.ofNat 32 (i 2).val) 0#32)) 0#32) = 1#1

theorem hcondF : ∀ t : Fin cfg1.N, condF (grid1.coords t) ↔ t.val % 8 = 0 :=
  (by decide +kernel : ∀ t : Fin grid1.N, condF (grid1.coords t) ↔ t.val % 8 = 0)

abbrev condL (i : grid1.Coords) : Prop := k1_cond2 i = 1#1

theorem hcondL : ∀ t : Fin cfg1.N, condL (grid1.coords t) ↔ t.val % 8 = 7 :=
  (by decide +kernel : ∀ t : Fin grid1.N, condL (grid1.coords t) ↔ t.val % 8 = 7)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel

theorem idleAt1_3 : ∀ t : Fin cfg1.N, ¬condL (grid1.coords t) → cfg1.idle 3 (grid1.coords t) = true := by decide +kernel
theorem noFlush1_3 : ∀ t : Fin cfg1.N, ¬condL (grid1.coords t) → (cfg1.win 3).flush t = false := by decide +kernel
theorem liveAt1_3 : ∀ t : Fin cfg1.N, condL (grid1.coords t) → cfg1.idle 3 (grid1.coords t) = false := by decide +kernel

abbrev ms1_0 (t : Fin cfg1.N) : Memref sig .tc .vmem S1x1024x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x64 .bf16 := win1_3.stage (cfg1.slots t 3)
abbrev hs1_3 (t : Fin cfg1.N) : (ms1_3 t).IsWhole := hstage1_3 ((cfg1.slots t 3).cast nbuf1_3)

abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x64 .f32 := Memref.whole cc1_scratch2

abbrev VS1_0 : View sig .tc .vmem S1024x1 .f32 := scM1_0.view
abbrev VS1_1 : View sig .tc .vmem S1024x1 .f32 := scM1_1.view
abbrev VS1_2 : View sig .tc .vmem S1024x64 .f32 := scM1_2.view
abbrev VO1_3 : View sig .tc .vmem S1x1024x64 .bf16 := (Memref.whole cc1_stg3_0 : Memref sig .tc .vmem S1x1024x64 .bf16).view

end Cert.KernelIdeal.Gen

end
-- ==== Proof.Launch1RunA.lean ====
import proofs.«403715_j42039139893702_3_alg».proof.Proof.Launch1Conds

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun1_A (c : Dev nD) (i : grid1.Coords) (arg3 : Memref sig .tc .vmem S1x1024x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x1024x64 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hcF : condF i) (hcL : ¬condL i)
    (x0 : Vec F S1x1024x64 .bf16) (x1 : Vec F S1x512x64 .bf16) (x2 : Vec F S1x512x64 .bf16) :
    Σ' (LS0 : List (View.Piece (Elt F) S1024x1 .f32)) (LS1 : List (View.Piece (Elt F) S1024x1 .f32)), { LS2 : List (View.Piece (Elt F) S1024x64 .f32) //
      ∀ (xi3 : Vec F S1x1024x64 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, fun xi3 E K => ?run⟩
  case run =>
    simp only [cc1__attn_kernel_eq_skeleton]; unfold cc1__attn_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hcF | exact hcL)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Gen

end
-- ==== Proof.Launch1RunB.lean ====
import proofs.«403715_j42039139893702_3_alg».proof.Proof.Launch1RunA

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun1_B (c : Dev nD) (i : grid1.Coords) (arg3 : Memref sig .tc .vmem S1x1024x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x1024x64 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hcF : ¬condF i) (hcL : ¬condL i)
    (x0 : Vec F S1x1024x64 .bf16) (x1 : Vec F S1x512x64 .bf16) (x2 : Vec F S1x512x64 .bf16)
    (xs0 : Vec F S1024x1 .f32) (xs1 : Vec F S1024x1 .f32) (xs2 : Vec F S1024x64 .f32) :
    Σ' (LS0 : List (View.Piece (Elt F) S1024x1 .f32)) (LS1 : List (View.Piece (Elt F) S1024x1 .f32)), { LS2 : List (View.Piece (Elt F) S1024x64 .f32) //
      ∀ (xi3 : Vec F S1x1024x64 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, fun xi3 E K => ?run⟩
  case run =>
    simp only [cc1__attn_kernel_eq_skeleton]; unfold cc1__attn_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg7.eq_unread hfs0; obtain rfl := harg8.eq_unread hfs1; obtain rfl := harg9.eq_unread hfs2
    sl_exec (disch := first | exact hcF | exact hcL)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Gen

end
-- ==== Proof.Launch1RunC.lean ====
import proofs.«403715_j42039139893702_3_alg».proof.Proof.Launch1RunB

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun1_C (c : Dev nD) (i : grid1.Coords) (arg3 : Memref sig .tc .vmem S1x1024x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x1024x64 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hcF : ¬condF i) (hcL : condL i)
    (x0 : Vec F S1x1024x64 .bf16) (x1 : Vec F S1x512x64 .bf16) (x2 : Vec F S1x512x64 .bf16)
    (xs0 : Vec F S1024x1 .f32) (xs1 : Vec F S1024x1 .f32) (xs2 : Vec F S1024x64 .f32) :
    Σ' (L3 : List (View.Piece (Elt F) S1x1024x64 .bf16)) (LS0 : List (View.Piece (Elt F) S1024x1 .f32)) (LS1 : List (View.Piece (Elt F) S1024x1 .f32)), { LS2 : List (View.Piece (Elt F) S1024x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, ?_, fun E K => ?run⟩
  case run =>
    simp only [cc1__attn_kernel_eq_skeleton]; unfold cc1__attn_kernel_skel
    simp only [k1_part1_eq_skeleton]; unfold k1_part1_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | exact hcF | exact hcL)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.KernelIdeal.Gen

end
-- ==== Proof.Launch1.lean ====
import proofs.«403715_j42039139893702_3_alg».proof.Proof.Launch1RunC

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))
end

section
variable (c : Dev nD) (i : grid1.Coords) (arg3 : Memref sig .tc .vmem S1x1024x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x1024x64 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole)

section
variable (hcF : condF i) (hcL : ¬condL i) (x0 : Vec F S1x1024x64 .bf16) (x1 x2 : Vec F S1x512x64 .bf16)

theorem scover1_A_0 (y : S1024x1.Idx) : ∃ pc ∈ (kernelRun1_A c i arg3 harg3 arg4 harg4 arg5 harg5 arg6 harg6 arg7 harg7 arg8 harg8 arg9 harg9 hcF hcL x0 x1 x2).1, y ∈ pc.1.set :=
  View.cover_of_tiledL _ S1024x1.size (by sl_kernel_rfl) y
theorem scover1_A_1 (y : S1024x1.Idx) : ∃ pc ∈ (kernelRun1_A c i arg3 harg3 arg4 harg4 arg5 harg5 arg6 harg6 arg7 harg7 arg8 harg8 arg9 harg9 hcF hcL x0 x1 x2).2.1, y ∈ pc.1.set :=
  View.cover_of_tiledL _ S1024x1.size (by sl_kernel_rfl) y
theorem scover1_A_2 (y : S1024x64.Idx) : ∃ pc ∈ (kernelRun1_A c i arg3 harg3 arg4 harg4 arg5 harg5 arg6 harg6 arg7 harg7 arg8 harg8 arg9 harg9 hcF hcL x0 x1 x2).2.2.1, y ∈ pc.1.set :=
  View.cover_of_tiledL _ S1024x64.size (by sl_kernel_rfl) y

/-- What the first-key-block case leaves in the running maximum, sum and weighted sum: each buffer's pieces read back. -/
def sout1_A : Vec F S1024x1 .f32 × Vec F S1024x1 .f32 × Vec F S1024x64 .f32 :=
  (VS1_0.read (Elt F) (VS1_0.writes (Elt F) VS1_0.junk (kernelRun1_A c i arg3 harg3 arg4 harg4 arg5 harg5 arg6 harg6 arg7 harg7 arg8 harg8 arg9 harg9 hcF hcL x0 x1 x2).1), VS1_1.read (Elt F) (VS1_1.writes (Elt F) VS1_1.junk (kernelRun1_A c i arg3 harg3 arg4 harg4 arg5 harg5 arg6 harg6 arg7 harg7 arg8 harg8 arg9 harg9 hcF hcL x0 x1 x2).2.1), VS1_2.read (Elt F) (VS1_2.writes (Elt F) VS1_2.junk (kernelRun1_A c i arg3 harg3 arg4 harg4 arg5 harg5 arg6 harg6 arg7 harg7 arg8 harg8 arg9 harg9 hcF hcL x0 x1 x2).2.2.1))
end

section
variable (hcF : ¬condF i) (hcL : ¬condL i) (x0 : Vec F S1x1024x64 .bf16) (x1 x2 : Vec F S1x512x64 .bf16) (xs0 xs1 : Vec F S1024x1 .f32) (xs2 : Vec F S1024x64 .f32)

theorem scover1_B_0 (y : S1024x1.Idx) : ∃ pc ∈ (kernelRun1_B c i arg3 harg3 arg4 harg4 arg5 harg5 arg6 harg6 arg7 harg7 arg8 harg8 arg9 harg9 hcF hcL x0 x1 x2 xs0 xs1 xs2).1, y ∈ pc.1.set :=
  View.cover_of_tiledL _ S1024x1.size (by sl_kernel_rfl) y
theorem scover1_B_1 (y : S1024x1.Idx) : ∃ pc ∈ (kernelRun1_B c i arg3 harg3 arg4 harg4 arg5 harg5 arg6 harg6 arg7 harg7 arg8 harg8 arg9 harg9 hcF hcL x0 x1 x2 xs0 xs1 xs2).2.1, y ∈ pc.1.set :=
  View.cover_of_tiledL _ S1024x1.size (by sl_kernel_rfl) y
theorem scover1_B_2 (y : S1024x64.Idx) : ∃ pc ∈ (kernelRun1_B c i arg3 harg3 arg4 harg4 arg5 harg5 arg6 harg6 arg7 harg7 arg8 harg8 arg9 harg9 hcF hcL x0 x1 x2 xs0 xs1 xs2).2.2.1, y ∈ pc.1.set :=
  View.cover_of_tiledL _ S1024x64.size (by sl_kernel_rfl) y

/-- The same for a middle key block, run on the buffers' earlier contents. -/
def sout1_B : Vec F S1024x1 .f32 × Vec F S1024x1 .f32 × Vec F S1024x64 .f32 :=
  (VS1_0.read (Elt F) (VS1_0.writes (Elt F) VS1_0.junk (kernelRun1_B c i arg3 harg3 arg4 harg4 arg5 harg5 arg6 harg6 arg7 harg7 arg8 harg8 arg9 harg9 hcF hcL x0 x1 x2 xs0 xs1 xs2).1), VS1_1.read (Elt F) (VS1_1.writes (Elt F) VS1_1.junk (kernelRun1_B c i arg3 harg3 arg4 harg4 arg5 harg5 arg6 harg6 arg7 harg7 arg8 harg8 arg9 harg9 hcF hcL x0 x1 x2 xs0 xs1 xs2).2.1), VS1_2.read (Elt F) (VS1_2.writes (Elt F) VS1_2.junk (kernelRun1_B c i arg3 harg3 arg4 harg4 arg5 harg5 arg6 harg6 arg7 harg7 arg8 harg8 arg9 harg9 hcF hcL x0 x1 x2 xs0 xs1 xs2).2.2.1))
end

section
variable (hcF : ¬condF i) (hcL : condL i) (x0 : Vec F S1x1024x64 .bf16) (x1 x2 : Vec F S1x512x64 .bf16) (xs0 xs1 : Vec F S1024x1 .f32) (xs2 : Vec F S1024x64 .f32)

theorem cover1_C_3 (y : S1x1024x64.Idx) : ∃ pc ∈ (kernelRun1_C c i arg3 harg3 arg4 harg4 arg5 harg5 arg6 harg6 arg7 harg7 arg8 harg8 arg9 harg9 hcF hcL x0 x1 x2 xs0 xs1 xs2).1, y ∈ pc.1.set :=
  View.cover_of_tiledL _ S1x1024x64.size (by sl_kernel_rfl) y
theorem scover1_C_0 (y : S1024x1.Idx) : ∃ pc ∈ (kernelRun1_C c i arg3 harg3 arg4 harg4 arg5 harg5 arg6 harg6 arg7 harg7 arg8 harg8 arg9 harg9 hcF hcL x0 x1 x2 xs0 xs1 xs2).2.1, y ∈ pc.1.set :=
  View.cover_of_tiledL _ S1024x1.size (by sl_kernel_rfl) y
theorem scover1_C_1 (y : S1024x1.Idx) : ∃ pc ∈ (kernelRun1_C c i arg3 harg3 arg4 harg4 arg5 harg5 arg6 harg6 arg7 harg7 arg8 harg8 arg9 harg9 hcF hcL x0 x1 x2 xs0 xs1 xs2).2.2.1, y ∈ pc.1.set :=
  View.cover_of_tiledL _ S1024x1.size (by sl_kernel_rfl) y
theorem scover1_C_2 (y : S1024x64.Idx) : ∃ pc ∈ (kernelRun1_C c i arg3 harg3 arg4 harg4 arg5 harg5 arg6 harg6 arg7 harg7 arg8 harg8 arg9 harg9 hcF hcL x0 x1 x2 xs0 xs1 xs2).2.2.2.1, y ∈ pc.1.set :=
  View.cover_of_tiledL _ S1024x64.size (by sl_kernel_rfl) y

/-- The last key block also stores the output block: that block first, then the three buffers. -/
def sout1_C : Vec F S1x1024x64 .bf16 × Vec F S1024x1 .f32 × Vec F S1024x1 .f32 × Vec F S1024x64 .f32 :=
  (VO1_3.read (Elt F) (VO1_3.writes (Elt F) VO1_3.junk (kernelRun1_C c i arg3 harg3 arg4 harg4 arg5 harg5 arg6 harg6 arg7 harg7 arg8 harg8 arg9 harg9 hcF hcL x0 x1 x2 xs0 xs1 xs2).1), VS1_0.read (Elt F) (VS1_0.writes (Elt F) VS1_0.junk (kernelRun1_C c i arg3 harg3 arg4 harg4 arg5 harg5 arg6 harg6 arg7 harg7 arg8 harg8 arg9 harg9 hcF hcL x0 x1 x2 xs0 xs1 xs2).2.1), VS1_1.read (Elt F) (VS1_1.writes (Elt F) VS1_1.junk (kernelRun1_C c i arg3 harg3 arg4 harg4 arg5 harg5 arg6 harg6 arg7 harg7 arg8 harg8 arg9 harg9 hcF hcL x0 x1 x2 xs0 xs1 xs2).2.2.1), VS1_2.read (Elt F) (VS1_2.writes (Elt F) VS1_2.junk (kernelRun1_C c i arg3 harg3 arg4 harg4 arg5 harg5 arg6 harg6 arg7 harg7 arg8 harg8 arg9 harg9 hcF hcL x0 x1 x2 xs0 xs1 xs2).2.2.2.1))
end
end

/-- Stands for the output block at the points that do not store it; nothing reads it. -/
def idleOut1 : Vec F S1x1024x64 .bf16 := VO1_3.read (Elt F) VO1_3.junk

section
variable (V : (c : Dev nD) → (b : Ref sig .tc) → Buf (Elt F) ((c : Thread nD τ).loc b))

/-- Each case at grid point `t`: on the launch's own memrefs, the point's three input blocks, and (after the first key block) the buffers `p` the point before left. -/
abbrev atA (c : Dev nD) (t : Fin cfg1.N) (hF : t.val % 8 = 0) (hL : ¬t.val % 8 = 7) : Vec F S1024x1 .f32 × Vec F S1024x1 .f32 × Vec F S1024x64 .f32 :=
  sout1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcondF t).mpr hF) (fun h => hL ((hcondL t).mp h)) (iblk1 V c 0 t) (iblk1 V c 1 t) (iblk1 V c 2 t)
abbrev atB (c : Dev nD) (t : Fin cfg1.N) (hF : ¬t.val % 8 = 0) (hL : ¬t.val % 8 = 7) (p : Vec F S1024x1 .f32 × Vec F S1024x1 .f32 × Vec F S1024x64 .f32) : Vec F S1024x1 .f32 × Vec F S1024x1 .f32 × Vec F S1024x64 .f32 :=
  sout1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => hF ((hcondF t).mp h)) (fun h => hL ((hcondL t).mp h)) (iblk1 V c 0 t) (iblk1 V c 1 t) (iblk1 V c 2 t) p.1 p.2.1 p.2.2
abbrev atC (c : Dev nD) (t : Fin cfg1.N) (hF : ¬t.val % 8 = 0) (hL : t.val % 8 = 7) (p : Vec F S1024x1 .f32 × Vec F S1024x1 .f32 × Vec F S1024x64 .f32) : Vec F S1x1024x64 .bf16 × Vec F S1024x1 .f32 × Vec F S1024x1 .f32 × Vec F S1024x64 .f32 :=
  sout1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => hF ((hcondF t).mp h)) ((hcondL t).mpr hL) (iblk1 V c 0 t) (iblk1 V c 1 t) (iblk1 V c 2 t) p.1 p.2.1 p.2.2

/-- The output block and the three buffers after point `n`: a first key block starts afresh, any other continues from the point before. -/
def outsAt1 (c : Dev nD) : (n : ℕ) → n < cfg1.N → Vec F S1x1024x64 .bf16 × Vec F S1024x1 .f32 × Vec F S1024x1 .f32 × Vec F S1024x64 .f32
  | 0, hn => (idleOut1, atA V c ⟨0, hn⟩ (Nat.zero_mod _) (by show ¬(0 % 8 = 7); omega))
  | n + 1, hn =>
    if hF : (n + 1) % 8 = 0 then (idleOut1, atA V c ⟨n + 1, hn⟩ hF (by show ¬(n + 1) % 8 = 7; omega))
    else if hL : (n + 1) % 8 = 7 then atC V c ⟨n + 1, hn⟩ hF hL (outsAt1 c n (Nat.lt_of_succ_lt hn)).2
    else (idleOut1, atB V c ⟨n + 1, hn⟩ hF hL (outsAt1 c n (Nat.lt_of_succ_lt hn)).2)

abbrev prevLt (t : Fin cfg1.N) : t.val - 1 < cfg1.N := Nat.lt_of_le_of_lt (Nat.sub_le _ _) t.isLt

theorem outsAt1_A (c : Dev nD) (t : Fin cfg1.N) (hF : t.val % 8 = 0) (hL : ¬t.val % 8 = 7) :
    outsAt1 V c t.val t.isLt = (idleOut1, atA V c t hF hL) := by
  obtain ⟨n, hn⟩ := t
  cases n with
  | zero => exact rfl
  | succ n => exact (dif_pos hF).trans rfl

theorem outsAt1_B (c : Dev nD) (t : Fin cfg1.N) (hF : ¬t.val % 8 = 0) (hL : ¬t.val % 8 = 7) :
    outsAt1 V c t.val t.isLt = (idleOut1, atB V c t hF hL (outsAt1 V c (t.val - 1) (prevLt t)).2) := by
  obtain ⟨n, hn⟩ := t
  cases n with
  | zero => exact absurd (Nat.zero_mod _) hF
  | succ n => exact (dif_neg hF).trans ((dif_neg hL).trans rfl)

theorem outsAt1_C (c : Dev nD) (t : Fin cfg1.N) (hF : ¬t.val % 8 = 0) (hL : t.val % 8 = 7) :
    outsAt1 V c t.val t.isLt = atC V c t hF hL (outsAt1 V c (t.val - 1) (prevLt t)).2 := by
  obtain ⟨n, hn⟩ := t
  cases n with
  | zero => exact absurd (Nat.zero_mod _) hF
  | succ n => exact (dif_neg hF).trans ((dif_pos hL).trans rfl)

/-- Buffer `b`, whole, at some contents. -/
def someBuf (c : Dev nD) (b : Ref sig .tc) : sProp 𝕄 := iprop(∃ f : Buf (Elt F) ((c : Thread nD τ).loc b), ((c : Thread nD τ).loc b) ↦{fullShare} f)

def restWith (c : Dev nD) (X0 X1 X2 : sProp 𝕄) : sProp 𝕄 :=
  iprop(someBuf c cc0_stg0_0 ∗ someBuf c cc0_stg0_1 ∗ someBuf c cc0_stg1_0 ∗ someBuf c cc0_stg2_0 ∗ someBuf c cc0_stg3_0 ∗ someBuf c cc0_stg4_0 ∗ someBuf c cc0_stg4_1 ∗ someBuf c cc0_stg5_0 ∗ someBuf c cc0_stg5_1 ∗ someBuf c cc0_stg6_0 ∗ someBuf c cc0_stg6_1 ∗ X0 ∗ X1 ∗ X2 ∗ someBuf c cc2_stg0_0 ∗ someBuf c cc2_stg0_1 ∗ someBuf c cc2_stg1_0 ∗ someBuf c cc2_stg2_0 ∗ someBuf c cc2_stg2_1)

theorem restWith_swap (c : Dev nD) (X0 X1 X2 Y0 Y1 Y2 : sProp 𝕄) :
    restWith (F := F) c X0 X1 X2 ⊢ iprop(X0 ∗ X1 ∗ X2 ∗ (iprop(Y0 ∗ Y1 ∗ Y2) -∗ restWith (F := F) c Y0 Y1 Y2)) := by
  unfold restWith
  iintro ⟨H1, H2, H3, H4, H5, H6, H7, H8, H9, H10, H11, HS0, HS1, HS2, H15, H16, H17, H18, H19⟩
  iframe HS0 HS1 HS2
  iintro ⟨HY0, HY1, HY2⟩
  iframe

theorem PhiA1_eq (c : Dev nD) :
    (Pipeline.ΦA spec1 c : sProp 𝕄)
      = iprop(restWith (F := F) c iprop(∃ d, owns (c : Thread nD τ) scM1_0 fullShare d) iprop(∃ d, owns (c : Thread nD τ) scM1_1 fullShare d)
          iprop(∃ d, owns (c : Thread nD τ) scM1_2 fullShare d) ∗ (∃ r, prngReg c r)) := by
  unfold Pipeline.ΦA restWith someBuf; rw [scopedRest1_eq]; simp only [scM1_0, scM1_1, scM1_2, owns_whole]; try rfl

def PhiS1 (c : Dev nD) : (n : ℕ) → n ≤ cfg1.N → sProp 𝕄
  | 0, _ => Pipeline.ΦA spec1 c
  | n + 1, hn => iprop(restWith (F := F) c (owns (c : Thread nD τ) scM1_0 fullShare (outsAt1 V c n hn).2.1)
      (owns (c : Thread nD τ) scM1_1 fullShare (outsAt1 V c n hn).2.2.1) (owns (c : Thread nD τ) scM1_2 fullShare (outsAt1 V c n hn).2.2.2)
      ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(restWith (F := F) c (owns (c : Thread nD τ) scM1_0 fullShare (outsAt1 V c n hn).2.1)
      (owns (c : Thread nD τ) scM1_1 fullShare (outsAt1 V c n hn).2.2.1) (owns (c : Thread nD τ) scM1_2 fullShare (outsAt1 V c n hn).2.2.2)
      ∗ (∃ r, prngReg c r)) := rfl

theorem PhiS1_pos (c : Dev nD) (n : ℕ) (h : n ≤ cfg1.N) (hz : n ≠ 0) :
    PhiS1 V c n h = iprop(restWith (F := F) c (owns (c : Thread nD τ) scM1_0 fullShare (outsAt1 V c (n - 1) (by omega)).2.1)
      (owns (c : Thread nD τ) scM1_1 fullShare (outsAt1 V c (n - 1) (by omega)).2.2.1) (owns (c : Thread nD τ) scM1_2 fullShare (outsAt1 V c (n - 1) (by omega)).2.2.2)
      ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

/-- What the running buffers hold can be forgotten: at any position the invariant gives the launch's untouched rest. -/
theorem PhiS1_weak (c : Dev nD) (n : ℕ) (h : n ≤ cfg1.N) :
    PhiS1 V c n h ⊢ iprop(restWith (F := F) c iprop(∃ d, owns (c : Thread nD τ) scM1_0 fullShare d) iprop(∃ d, owns (c : Thread nD τ) scM1_1 fullShare d) iprop(∃ d, owns (c : Thread nD τ) scM1_2 fullShare d) ∗ (∃ r, prngReg c r)) := by
  cases n with
  | zero =>
    rw [← PhiA1_eq]
    try exact Idealize.SL.BI.Entails.refl _
  | succ n =>
    rw [PhiS1_succ]
    iintro ⟨HR, Hg⟩
    ihave HR' := (restWith_swap (F := F) c _ _ _ iprop(∃ d, owns (c : Thread nD τ) scM1_0 fullShare d) iprop(∃ d, owns (c : Thread nD τ) scM1_1 fullShare d) iprop(∃ d, owns (c : Thread nD τ) scM1_2 fullShare d)) $$ HR
    icases HR' with ⟨HS0, HS1, HS2, Hback⟩
    iframe Hg
    iapply Hback
    isplitl [HS0]; · iexists _; iexact HS0
    isplitl [HS1]; · iexists _; iexact HS1
    iexists _; iexact HS2

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The body at any point: the two conditions' closed forms say which case the point is in; the invariant lends the three running buffers at what the point before left and takes them back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  by_cases hF : t.val % 8 = 0
  · have hL : ¬t.val % 8 = 7 := by omega
    rw [Dat.leavesExact_idle (dat1 V c) 3 t (idleAt1_3 t (fun h => hL ((hcondL t).mp h))) (noFlush1_3 t (fun h => hL ((hcondL t).mp h)))]
    rw [outsAt1_A V c t hF hL]
    unfold atA sout1_A; dsimp only
    rw [PhiS1_castSucc V c t]
    iintro ⟨HP, Ho, ⟨%d0, H0⟩, ⟨%d1, H1⟩, ⟨%d2, H2⟩, ⟨%d3, H3⟩⟩
    ihave HP' := (PhiS1_weak V c _ _) $$ HP
    icases HP' with ⟨HR, Hg⟩
    ihave HR' := (restWith_swap (F := F) c _ _ _ _ _ _) $$ HR
    icases HR' with ⟨HS0, HS1, HS2, Hback⟩
    iapply ((kernelRun1_A c (grid1.coords t) _ _ _ _ _ _ _ _ _ _ _ _ _ _ ((hcondF t).mpr hF) (fun h => hL ((hcondL t).mp h)) (iblk1 V c 0 t) (iblk1 V c 1 t) (iblk1 V c 2 t)).2.2.2 _ Set.univ _)
    iframe H0 H1 H2
    isplitl [H3]; · iexact H3
    isplitl [HS0]; · iexact HS0
    isplitl [HS1]; · iexact HS1
    isplitl [HS2]; · iexact HS2
    iintro ⟨H0, H1, H2, H3, ⟨%es0, HS0⟩, ⟨%es1, HS1⟩, ⟨%es2, HS2⟩⟩
    iframe Hg Ho H0 H1 H2
    isplitr [H3]
    · iapply Hback
      isplitl [HS0]
      · unfold owns; iexists _; isplitr
        swap; · iexact HS0
        ipureintro; exact View.read_writes_of_cover _ _ _ _ _ (scover1_A_0 c _ _ _ _ _ _ _ _ _ _ _ _ _ _ _ _ _ _ _ _)
      isplitl [HS1]
      · unfold owns; iexists _; isplitr
        swap; · iexact HS1
        ipureintro; exact View.read_writes_of_cover _ _ _ _ _ (scover1_A_1 c _ _ _ _ _ _ _ _ _ _ _ _ _ _ _ _ _ _ _ _)
      unfold owns; iexists _; isplitr
      swap; · iexact HS2
      ipureintro; exact View.read_writes_of_cover _ _ _ _ _ (scover1_A_2 c _ _ _ _ _ _ _ _ _ _ _ _ _ _ _ _ _ _ _ _)
    iexists _; iexact H3
  · have hz : t.val ≠ 0 := fun h => hF (by rw [h])
    by_cases hL : t.val % 8 = 7
    · rw [show (dat1 V c).leavesExact 3 t = owns (c : Thread nD τ) (ms1_3 t) fullShare ((dat1 V c).after 3 t) from by
          unfold Dat.leavesExact; rw [liveAt1_3 t ((hcondL t).mpr hL)], after1_3]
      rw [outsAt1_C V c t hF hL]
      unfold atC sout1_C; dsimp only
      rw [PhiS1_castSucc V c t, PhiS1_pos V c _ _ hz]
      iintro ⟨⟨HR, Hg⟩, Ho, ⟨%d0, H0⟩, ⟨%d1, H1⟩, ⟨%d2, H2⟩, ⟨%d3, H3⟩⟩
      ihave HR' := (restWith_swap (F := F) c _ _ _ _ _ _) $$ HR
      icases HR' with ⟨HS0, HS1, HS2, Hback⟩
      iapply ((kernelRun1_C c (grid1.coords t) _ _ _ _ _ _ _ _ _ _ _ _ _ _ (fun h => hF ((hcondF t).mp h)) ((hcondL t).mpr hL) (iblk1 V c 0 t) (iblk1 V c 1 t) (iblk1 V c 2 t) _ _ _).2.2.2.2 Set.univ _)
      iframe H0 H1 H2
      isplitl [H3]; · iexists _; iexact H3
      isplitl [HS0]; · iexact HS0
      isplitl [HS1]; · iexact HS1
      isplitl [HS2]; · iexact HS2
      iintro ⟨H0, H1, H2, ⟨%e3, H3⟩, ⟨%es0, HS0⟩, ⟨%es1, HS1⟩, ⟨%es2, HS2⟩⟩
      iframe Hg Ho H0 H1 H2
      isplitr [H3]
      · iapply Hback
        isplitl [HS0]
        · unfold owns; iexists _; isplitr
          swap; · iexact HS0
          ipureintro; exact View.read_writes_of_cover _ _ _ _ _ (scover1_C_0 c _ _ _ _ _ _ _ _ _ _ _ _ _ _ _ _ _ _ _ _ _ _ _)
        isplitl [HS1]
        · unfold owns; iexists _; isplitr
          swap; · iexact HS1
          ipureintro; exact View.read_writes_of_cover _ _ _ _ _ (scover1_C_1 c _ _ _ _ _ _ _ _ _ _ _ _ _ _ _ _ _ _ _ _ _ _ _)
        unfold owns; iexists _; isplitr
        swap; · iexact HS2
        ipureintro; exact View.read_writes_of_cover _ _ _ _ _ (scover1_C_2 c _ _ _ _ _ _ _ _ _ _ _ _ _ _ _ _ _ _ _ _ _ _ _)
      unfold owns; iexists _; isplitr
      swap; · iexact H3
      ipureintro; exact View.read_writes_of_cover _ _ _ _ _ (cover1_C_3 c _ _ _ _ _ _ _ _ _ _ _ _ _ _ _ _ _ _ _ _ _ _ _)
    · rw [Dat.leavesExact_idle (dat1 V c) 3 t (idleAt1_3 t (fun h => hL ((hcondL t).mp h))) (noFlush1_3 t (fun h => hL ((hcondL t).mp h)))]
      rw [outsAt1_B V c t hF hL]
      unfold atB sout1_B; dsimp only
      rw [PhiS1_castSucc V c t, PhiS1_pos V c _ _ hz]
      iintro ⟨⟨HR, Hg⟩, Ho, ⟨%d0, H0⟩, ⟨%d1, H1⟩, ⟨%d2, H2⟩, ⟨%d3, H3⟩⟩
      ihave HR' := (restWith_swap (F := F) c _ _ _ _ _ _) $$ HR
      icases HR' with ⟨HS0, HS1, HS2, Hback⟩
      iapply ((kernelRun1_B c (grid1.coords t) _ _ _ _ _ _ _ _ _ _ _ _ _ _ (fun h => hF ((hcondF t).mp h)) (fun h => hL ((hcondL t).mp h)) (iblk1 V c 0 t) (iblk1 V c 1 t) (iblk1 V c 2 t) _ _ _).2.2.2 _ Set.univ _)
      iframe H0 H1 H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      iframe Hg Ho H0 H1 H2
      isplitr [H3]
      · iapply Hback
        isplitl [HS0]
        · unfold owns; iexists _; isplitr
          swap; · iexact HS0
          ipureintro; exact View.read_writes_of_cover _ _ _ _ _ (scover1_B_0 c _ _ _ _ _ _ _ _ _ _ _ _ _ _ _ _ _ _ _ _ _ _ _)
        isplitl [HS1]
        · unfold owns; iexists _; isplitr
          swap; · iexact HS1
          ipureintro; exact View.read_writes_of_cover _ _ _ _ _ (scover1_B_1 c _ _ _ _ _ _ _ _ _ _ _ _ _ _ _ _ _ _ _ _ _ _ _)
        unfold owns; iexists _; isplitr
        swap; · iexact HS2
        ipureintro; exact View.read_writes_of_cover _ _ _ _ _ (scover1_B_2 c _ _ _ _ _ _ _ _ _ _ _ _ _ _ _ _ _ _ _ _ _ _ _)
      iexists _; iexact H3

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem Phi_out1 (c : Dev nD) (t : Fin (cfg1.N + 1)) : (dat1 V c).Φ t ⊢ Pipeline.ΦA spec1 c := by
  rw [show (dat1 V c).Φ t = PhiS1 V c t.val (Nat.le_of_lt_succ t.isLt) from rfl, PhiA1_eq]
  exact PhiS1_weak V c _ _

theorem hout1 (c : Dev nD) : (dat1 V c).Φ (Fin.last cfg1.N) ⊢ Pipeline.ΦA spec1 c := Phi_out1 V c _

end

end Cert.KernelIdeal.Gen

end
-- ==== Proof.Launch2.lean ====
import proofs.«403715_j42039139893702_3_alg».proof.Proof.Gen.KernelIdeal.Launch
import proofs.«403715_j42039139893702_3_alg».proof.Proof.Gen.KernelIdeal.Skeleton
import proofs.«403715_j42039139893702_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2a : Rect S1024x512 := Rect.unit (s := S1024x512) ![0, 0] S1024x512.size inb_S1024x512_S1024x512_0_0
abbrev r2w : Rect S512x256 := Rect.unit (s := S512x256) ![0, 0] S512x256.size inb_S512x256_S512x256_0_0
abbrev r2o : Rect S1024x256 := Rect.unit (s := S1024x256) ![0, 0] S1024x256.size inb_S1024x256_S1024x256_0_0

def out2_2 (a0 : Vec F S1024x512 .bf16) (w1 : Vec F S512x256 .bf16) : Vec F S1024x256 .f32 :=
  View.canon [⟨r2o, k2_pay1 (View.ld a0 r2a) (View.ld w1 r2w)⟩]

theorem cover2_o (p0 : Vec F S1024x256 .f32) (y : S1024x256.Idx) :
    ∃ pc ∈ ([⟨r2o, p0⟩] : List (View.Piece (Elt F) S1024x256 .f32)), y ∈ pc.1.set :=
  View.cover_of_tiled [⟨r2o, p0⟩] S1024x256.size (by rfl) y

set_option maxHeartbeats 2000000 in

theorem sound_kernel2 (c : Dev nD) (E : Set ℕ) (i : grid2.Coords)
    (arg1 : Memref sig .tc .vmem S1024x512 .bf16) (harg1 : arg1.IsWhole) (arg2 : Memref sig .tc .vmem S512x256 .bf16) (harg2 : arg2.IsWhole)
    (arg3 : Memref sig .tc .vmem S1024x256 .f32) (harg3 : arg3.IsWhole)
    (a0 : Vec F S1024x512 .bf16) (w1 : Vec F S512x256 .bf16) (K : PUnit → sProp 𝕄) :
    iprop(owns (c : Thread nD τ) arg1 fullShare a0 ∗ owns (c : Thread nD τ) arg2 fullShare w1
        ∗ (∃ d, owns (c : Thread nD τ) arg3 fullShare d)
        ∗ (iprop(owns (c : Thread nD τ) arg1 fullShare a0 ∗ owns (c : Thread nD τ) arg2 fullShare w1
            ∗ owns (c : Thread nD τ) arg3 fullShare (out2_2 a0 w1)) -∗ K ⟨⟩))
      ⊢ wp frame (wpE (defs₀ (F := F)) Variants.none c none) E (cc2__out_proj_kernel i arg1 harg1 arg2 harg2 arg3 harg3) K := by
  simp only [cc2__out_proj_kernel_eq_skeleton]; unfold cc2__out_proj_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_o _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  iframe H0 H1
  isplitl [H2]; · iexists _; iexact H2
  iintro ⟨H0, H1, H2⟩
  iframe

theorem body_obligation2 (c : Dev nD) : BodyObligation (dat2 (F := F) V c) (defs₀ (F := F)) Variants.none () Set.univ := fun t => by
  rw [bigSep_W2, bigSep_W2]
  exact sound_body2 V c t

end

end Cert.KernelIdeal.Gen

end
-- ==== Proof.Run.lean ====
import proofs.«403715_j42039139893702_3_alg».proof.Proof.Gen.KernelIdeal.Regions
import proofs.«403715_j42039139893702_3_alg».proof.Proof.Launch0
import proofs.«403715_j42039139893702_3_alg».proof.Proof.Launch1
import proofs.«403715_j42039139893702_3_alg».proof.Proof.Launch2

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev U1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev U2 : (c : Dev nD) → (b : Ref sig .tc) → Buf (Elt F) ((c : Thread nD τ).loc b) := fun c b => W2 m ρ c b

abbrev W3 : Dev nD → Valuation τ sig (Elt F) := fun c => StableHlo.after hostOps1 (W2 m ρ c)
abbrev U3 : (c : Dev nD) → (b : Ref sig .tc) → Buf (Elt F) ((c : Thread nD τ).loc b) := fun c b => W3 m ρ c b

def W4 (c : Dev nD) : Valuation τ sig (Elt F) :=
  Pipeline.withArrays spec1 c (W3 m ρ c) fun w => (dat1 (U3 m ρ) c).arrAt w cfg1.N
theorem W4_arr (c : Dev nD) (w : Fin cfg1.W) :
    W4 m ρ c (Proc.devRef .tc (Pipeline.arrRef spec1 w)) = (dat1 (U3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev U4 : (c : Dev nD) → (b : Ref sig .tc) → Buf (Elt F) ((c : Thread nD τ).loc b) := fun c b => W4 m ρ c b

abbrev W5 : Dev nD → Valuation τ sig (Elt F) := fun c => StableHlo.after hostOps2 (W4 m ρ c)
abbrev U5 : (c : Dev nD) → (b : Ref sig .tc) → Buf (Elt F) ((c : Thread nD τ).loc b) := fun c b => W5 m ρ c b

def W6 (c : Dev nD) : Valuation τ sig (Elt F) :=
  Pipeline.withArrays spec2 c (W5 m ρ c) fun w => (dat2 (U5 m ρ) c).arrAt w cfg2.N
theorem W6_arr (c : Dev nD) (w : Fin cfg2.W) :
    W6 m ρ c (Proc.devRef .tc (Pipeline.arrRef spec2 w)) = (dat2 (U5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev U6 : (c : Dev nD) → (b : Ref sig .tc) → Buf (Elt F) ((c : Thread nD τ).loc b) := fun c b => W6 m ρ c b

abbrev W7 : Dev nD → Valuation τ sig (Elt F) := fun c => StableHlo.after hostOps3 (W6 m ρ c)

/-- A buffer that no host stretch writes and that is no launch's array ends as launched. -/
theorem W7_keep (c : Dev nD) (b : Ref sig .tc) (h0 : b ∉ hostOps0_W) (h1 : b ∉ hostOps1_W) (h2 : b ∉ hostOps2_W) (h3 : b ∉ hostOps3_W)
    (a0 : ∀ w, Pipeline.arrRef spec0 w ≠ b) (a1 : ∀ w, Pipeline.arrRef spec1 w ≠ b) (a2 : ∀ w, Pipeline.arrRef spec2 w ≠ b) :
    W7 m ρ c (Proc.devRef .tc b) = m ((c : Thread nD τ).loc b) :=
  calc W7 m ρ c (Proc.devRef .tc b)
    _ = W6 m ρ c (Proc.devRef .tc b) := StableHlo.after_of_writes_sub hostOps3 _ hostOps3_writes h3
    _ = W5 m ρ c (Proc.devRef .tc b) := W6_of_ne m ρ c b a2
    _ = W4 m ρ c (Proc.devRef .tc b) := StableHlo.after_of_writes_sub hostOps2 _ hostOps2_writes h2
    _ = W3 m ρ c (Proc.devRef .tc b) := W4_of_ne m ρ c b a1
    _ = W2 m ρ c (Proc.devRef .tc b) := StableHlo.after_of_writes_sub hostOps1 _ hostOps1_writes h1
    _ = W1 m ρ c (Proc.devRef .tc b) := W2_of_ne m ρ c b a0
    _ = W0 m ρ c (Proc.devRef .tc b) := StableHlo.after_of_writes_sub hostOps0 _ hostOps0_writes h0
    _ = m ((c : Thread nD τ).loc b) := rfl

def pdat3 : (p : Fin 3) → (c : Dev nD) → Dat τ (Elt F) Unit ℕ (UR sig nD τ) ℕ (Pipeline.pin (pcfgs (F := F)) adm p) c
  | ⟨0, _⟩ => fun c => dat0 (U1 m ρ) c
  | ⟨1, _⟩ => fun c => dat1 (U3 m ρ) c
  | ⟨2, _⟩ => fun c => dat2 (U5 m ρ) c
abbrev 𝒱r : Variants := Variants.none

abbrev Lr : GSem nD τ sig → Finset Unit := fun _ => ∅
abbrev lvr : GSem nD τ sig → Unit → ℕ := fun _ _ => 0

abbrev Rr (c : Dev nD) : sProp 𝕄 := iprop((∃ r, prngReg c r) ∗ ∃ W, owes (c : Thread nD τ) (0 : CellTallies nD τ sig Unit) W)

abbrev hsegr (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱r Lr lvr :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr

theorem mem_ucr (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tend (c : Dev nD) : sProp 𝕄 := iprop(StableHlo.held (c : Thread nD τ) (Pipeline.ucRefs τ sig) (W7 m ρ c) ∗ ∃ r, prngReg c r)

set_option backward.isDefEq.respectTransparency.types false in

def regn0 : Pipeline.RegionSeg (pcfgs (F := F)) adm (pdat3 m ρ) () defs₀ 𝒱r Lr lvr 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ Lr lvr 0 fun _ _ => rfl
  pre c := iprop(StableHlo.held (c : Thread nD τ) (Pipeline.ucRefs τ sig) (W1 m ρ c) ∗ Rr c)
  post c := iprop(StableHlo.held (c : Thread nD τ) (Pipeline.ucRefs τ sig) (W2 m ρ c) ∗ Rr c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm (pdat3 m ρ) launch0.win launch0.arr_whole c
      ((pdat3 m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat3 m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdat3 m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdat3 m ρ) ((pdat3 m ρ 0 c).share_full fun _ => rfl)
      (U1 m ρ c) (U2 m ρ c) ((pdat3 m ρ 0 c).arrAt · cfg0.N) (fun w => (W2_arr m ρ c w).symm)
      (fun b hb => W2_of_ne m ρ c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def regn1 : Pipeline.RegionSeg (pcfgs (F := F)) adm (pdat3 m ρ) () defs₀ 𝒱r Lr lvr 1 where
  win := launch1.win.to₀
  block_pos := launch1.block_pos
  stage_whole := launch1.stage_whole
  K := PEmpty
  osem k := k.elim
  ho := Pipeline.OwnSemFacts.none _
  hbody c := (body_obligation1 (U3 m ρ) c).loose
  hwaits := Pipeline.hwaits_of_owed_zero _ _ _ _ Lr lvr 1 fun _ _ => rfl
  pre c := iprop(StableHlo.held (c : Thread nD τ) (Pipeline.ucRefs τ sig) (W3 m ρ c) ∗ Rr c)
  post c := iprop(StableHlo.held (c : Thread nD τ) (Pipeline.ucRefs τ sig) (W4 m ρ c) ∗ Rr c)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) adm (pdat3 m ρ) launch1.win launch1.arr_whole c
      ((pdat3 m ρ 1 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (U3 m ρ) c
    unfold Pipeline.ΦA at h
    rw [show (pdat3 m ρ 1 c).Φ 0 = (dat1 (U3 m ρ) c).Φ 0 from rfl]
    iintro ⟨Hp, -, Hr⟩
    iapply h
    isplitl [Hr]; · iexact Hr
    iexact Hp
  hout c := by
    have h := hout1 (U3 m ρ) c
    unfold Pipeline.ΦA at h
    rw [Pipeline.ownSems0_none, show (pdat3 m ρ 1 c).Φ (Fin.last _) = (dat1 (U3 m ρ) c).Φ (Fin.last cfg1.N) from rfl]
    iintro HP
    ihave H := h $$ HP
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdat3 m ρ) ((pdat3 m ρ 1 c).share_full fun _ => rfl)
      (U3 m ρ c) (U4 m ρ c) ((pdat3 m ρ 1 c).arrAt · cfg1.N) (fun w => (W4_arr m ρ c w).symm)
      (fun b hb => W4_of_ne m ρ c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def regn2 : Pipeline.RegionSeg (pcfgs (F := F)) adm (pdat3 m ρ) () defs₀ 𝒱r Lr lvr 2 where
  win := launch2.win.to₀
  block_pos := launch2.block_pos
  stage_whole := launch2.stage_whole
  K := PEmpty
  osem k := k.elim
  ho := Pipeline.OwnSemFacts.none _
  hbody c := (body_obligation2 (U5 m ρ) c).loose
  hwaits := Pipeline.hwaits_of_owed_zero _ _ _ _ Lr lvr 2 fun _ _ => rfl
  pre c := iprop(StableHlo.held (c : Thread nD τ) (Pipeline.ucRefs τ sig) (W5 m ρ c) ∗ Rr c)
  post c := iprop(StableHlo.held (c : Thread nD τ) (Pipeline.ucRefs τ sig) (W6 m ρ c) ∗ Rr c)
  X c := iprop(∃ r, prngReg c r)
  Y c := iprop(∃ r, prngReg c r)
  Z c := Pipeline.unscopedRest (Ix := Unit) (Name := ℕ) (U := UR sig nD τ) (Lvl := ℕ) spec2 c (U5 m ρ c)
  hentry c := by
    rw [Pipeline.ownSems0_none]
    have hsplit := Pipeline.arrays_of_unscopedBufs (p := 2) (pcfgs (F := F)) adm (pdat3 m ρ) launch2.win launch2.arr_whole c
      ((pdat3 m ρ 2 c).share_full fun _ => rfl) (U5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat3 m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdat3 m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdat3 m ρ) ((pdat3 m ρ 2 c).share_full fun _ => rfl)
      (U5 m ρ c) (U6 m ρ c) ((pdat3 m ρ 2 c).arrAt · cfg2.N) (fun w => (W6_arr m ρ c w).symm)
      (fun b hb => W6_of_ne m ρ c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segsr : List (Pipeline.Seg (pcfgs (F := F)) adm (pdat3 m ρ) () defs₀ 𝒱r Lr lvr) :=
  [ .host (hsegr hostOps0 hostOps0_sub hostOps0_fresh (W0 m ρ)),
    .region (regn0 m ρ),
    .host (hsegr hostOps1 hostOps1_sub hostOps1_fresh (W2 m ρ)),
    .region (regn1 m ρ),
    .host (hsegr hostOps2 hostOps2_sub hostOps2_fresh (W4 m ρ)),
    .region (regn2 m ρ),
    .host (hsegr hostOps3 hostOps3_sub hostOps3_fresh (W6 m ρ)) ]

theorem main_runr (c : Dev nD) : main (F := F) c = Pipeline.Seg.run (segsr m ρ) := (main_chain c).trans (by chain_rfl)

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdat3 m ρ) () cellOf_inj emb₁ defs₀ 𝒱r Lr lvr m ρ main (segsr m ρ)
    (fun c Q => by rw [main_runr m ρ c])
    (by simp only [segsr, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rr c)) (Tₙ := Tend m ρ)
    (hch := ⟨fun _ => .rfl, fun _ => .rfl, fun _ => .rfl, fun _ => .rfl, fun _ => .rfl, fun _ => .rfl, fun _ => .rfl, fun c => by
      show (iprop(StableHlo.held (c : Thread nD τ) (Pipeline.ucRefs τ sig) (W7 m ρ c) ∗ Rr c) : sProp 𝕄)
        ⊢ iprop(Tend m ρ c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach Lr lvr fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-- The run with the result array named: it ends at the last boundary's contents, and the five argument arrays as launched. -/
theorem run_result : θ_run defs (onTc (τ := τ) (main (F := F))) ⟨m, fun _ => 0, ρ⟩ (fun r => ∀ c : Dev nD,
      r.2.mem ((c.tc : Thread nD τ).loc main_v26) = W7 m ρ c (Proc.devRef .tc main_v26)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨h c _ (mem_ucr main_v26 (by decide)),
     (h c _ (mem_ucr main_arg0 (by decide))).trans (W7_keep m ρ c main_arg0 (by decide) (by decide) (by decide) (by decide) (by decide) (by decide) (by decide)),
     (h c _ (mem_ucr main_arg1 (by decide))).trans (W7_keep m ρ c main_arg1 (by decide) (by decide) (by decide) (by decide) (by decide) (by decide) (by decide)),
     (h c _ (mem_ucr main_arg2 (by decide))).trans (W7_keep m ρ c main_arg2 (by decide) (by decide) (by decide) (by decide) (by decide) (by decide) (by decide)),
     (h c _ (mem_ucr main_arg3 (by decide))).trans (W7_keep m ρ c main_arg3 (by decide) (by decide) (by decide) (by decide) (by decide) (by decide) (by decide)),
     (h c _ (mem_ucr main_arg4 (by decide))).trans (W7_keep m ρ c main_arg4 (by decide) (by decide) (by decide) (by decide) (by decide) (by decide) (by decide))⟩) (run_all m ρ)

theorem frame_hand : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_result m ρ)

end Cert.KernelIdeal.Gen

end
-- ==== Proof.Value0.lean ====
import proofs.«403715_j42039139893702_3_alg».proof.Proof.Launch0
import Idealize.ShloMosaic.Lib.Pipeline.Value
import Idealize.ShloMosaic.Lib.ValueIdx
import Idealize.ShloMosaic.PureOps.Ideal.Laws

set_option maxRecDepth 16384

noncomputable section

namespace Cert.KernelIdeal.Val0

open Cert.KernelIdeal Cert.KernelIdeal.Gen Idealize.ShloMosaic Idealize.ShloMosaic.TcCoe Idealize.SL.Sem Idealize.ShloMosaic.ValueIdx
open Idealize.ShloMosaic.Pipeline (Dat)

theorem hz : (![0, 0] : Fin 2 → Nat) = fun _ => 0 := funext fun a => by fin_cases a <;> rfl

theorem lhs_dot_0 (i : S1024x512.Idx) (q : dot_S1024x256_S256x512_S1024x512_1_0_0_1_n_n.contr.Idx) :
    (dot_S1024x256_S256x512_S1024x512_1_0_0_1_n_n.lhsIdx i q 0).val = (i 0).val := by
  unfold DotDims.lhsIdx
  rw [dif_neg (show ¬(0 : Fin S1024x256.rank) ∈ dot_S1024x256_S256x512_S1024x512_1_0_0_1_n_n.lhsBatch by decide), dif_pos (show (0 : Fin S1024x256.rank) ∈ dot_S1024x256_S256x512_S1024x512_1_0_0_1_n_n.lhsNonContracting by decide)]
  rfl
theorem lhs_dot_1 (i : S1024x512.Idx) (q : dot_S1024x256_S256x512_S1024x512_1_0_0_1_n_n.contr.Idx) :
    (dot_S1024x256_S256x512_S1024x512_1_0_0_1_n_n.lhsIdx i q 1).val = (q ⟨0, by decide⟩).val :=
  dot_S1024x256_S256x512_S1024x512_1_0_0_1_n_n.lhsIdx_val_of_single rfl i q

theorem rhs_dot_0 (i : S1024x512.Idx) (q : dot_S1024x256_S256x512_S1024x512_1_0_0_1_n_n.contr.Idx) :
    (dot_S1024x256_S256x512_S1024x512_1_0_0_1_n_n.rhsIdx i q 0).val = (q ⟨0, by decide⟩).val :=
  dot_S1024x256_S256x512_S1024x512_1_0_0_1_n_n.rhsIdx_val_of_single rfl i q
theorem rhs_dot_1 (i : S1024x512.Idx) (q : dot_S1024x256_S256x512_S1024x512_1_0_0_1_n_n.contr.Idx) :
    (dot_S1024x256_S256x512_S1024x512_1_0_0_1_n_n.rhsIdx i q 1).val = (i 1).val := by
  unfold DotDims.rhsIdx
  rw [dif_neg (show ¬(1 : Fin S256x512.rank) ∈ dot_S1024x256_S256x512_S1024x512_1_0_0_1_n_n.rhsBatch by decide), dif_pos (show (1 : Fin S256x512.rank) ∈ dot_S1024x256_S256x512_S1024x512_1_0_0_1_n_n.rhsNonContracting by decide)]
  rfl

theorem pay1_eq (x0 : Vec Ideal S1024x256 .f32) : (k0_pay1 (F := Ideal) x0 : S1024x256.Idx → EReal) = x0 := by
  unfold k0_pay1
  exact shapeCast_self x0 shapeCasts_S1024x256_S1024x256

theorem dot_apply (l : FVec Ideal S1024x256 .bf16) (w : FVec Ideal S256x512 .bf16) (p : Fin 1024) (e : Fin 512) :
    FloatOps.matmul dot_S1024x256_S256x512_S1024x512_1_0_0_1_n_n none l w (constant (F := Ideal) S1024x512 .f32 0x00000000#32) (ix2 p e)
      = ∑ k : Fin 256, l (ix2 p k) * w (ix2 k e) := by
  rw [Ideal.matmul_constant_zero_apply, ← Equiv.sum_comp (contrEquiv1 dot_S1024x256_S256x512_S1024x512_1_0_0_1_n_n 256 rfl rfl).symm]
  refine Finset.sum_congr rfl fun k _ => ?_
  have hk := contrEquiv1_symm_val dot_S1024x256_S256x512_S1024x512_1_0_0_1_n_n 256 rfl rfl k
  have el : dot_S1024x256_S256x512_S1024x512_1_0_0_1_n_n.lhsIdx (ix2 p e) ((contrEquiv1 dot_S1024x256_S256x512_S1024x512_1_0_0_1_n_n 256 rfl rfl).symm k) = ix2 p k := funext fun a => Fin.ext (by
    match a with
    | ⟨0, _⟩ => exact lhs_dot_0 _ _
    | ⟨1, _⟩ => exact (lhs_dot_1 _ _).trans hk)
  have er : dot_S1024x256_S256x512_S1024x512_1_0_0_1_n_n.rhsIdx (ix2 p e) ((contrEquiv1 dot_S1024x256_S256x512_S1024x512_1_0_0_1_n_n 256 rfl rfl).symm k) = ix2 k e := funext fun a => Fin.ext (by
    match a with
    | ⟨0, _⟩ => exact (rhs_dot_0 _ _).trans hk
    | ⟨1, _⟩ => exact rhs_dot_1 _ _)
  rw [el, er]

theorem pay2_apply (x0 : Vec Ideal S1024x256 .f32) (w : Vec Ideal S256x512 .bf16) (p : Fin 1024) (e : Fin 512) :
    (k0_pay2 (F := Ideal) x0 w : S1024x512.Idx → EReal) (ix2 p e) = ∑ k : Fin 256, x0 (ix2 p k) * w (ix2 k e) := by
  unfold k0_pay2
  refine (dot_apply (k0_pay1 (F := Ideal) x0) (shapeCast S256x512 w shapeCasts_S256x512_S256x512) p e).trans ?_
  rw [pay1_eq, shapeCast_self]
theorem pay3_apply (x0 : Vec Ideal S1024x256 .f32) (w : Vec Ideal S256x512 .bf16) (p : Fin 1024) (e : Fin 512) :
    (k0_pay3 (F := Ideal) x0 w : S1024x512.Idx → EReal) (ix2 p e) = ∑ k : Fin 256, x0 (ix2 p k) * w (ix2 k e) := by
  unfold k0_pay3
  refine (dot_apply (k0_pay1 (F := Ideal) x0) (shapeCast S256x512 w shapeCasts_S256x512_S256x512) p e).trans ?_
  rw [pay1_eq, shapeCast_self]
theorem pay4_apply (x0 : Vec Ideal S1024x256 .f32) (w : Vec Ideal S256x512 .bf16) (p : Fin 1024) (e : Fin 512) :
    (k0_pay4 (F := Ideal) x0 w : S1024x512.Idx → EReal) (ix2 p e) = ∑ k : Fin 256, x0 (ix2 p k) * w (ix2 k e) := by
  unfold k0_pay4
  refine (dot_apply (k0_pay1 (F := Ideal) x0) (shapeCast S256x512 w shapeCasts_S256x512_S256x512) p e).trans ?_
  rw [pay1_eq, shapeCast_self]

variable (V : (c : Dev nD) → (b : Ref sig .tc) → Buf (Elt Ideal) ((c : Thread nD τ).loc b))

def prod0 (x : Vec Ideal S8192x256 .f32) (w : Vec Ideal S256x512 .bf16) : Vec Ideal S8192x512 .bf16 :=
  fun i => ∑ k : Fin 256, x (ix2 (⟨(i 0).val, idx2_lt0 i⟩ : Fin 8192) k) * w (ix2 k (⟨(i 1).val, idx2_lt1 i⟩ : Fin 512))

theorem prod0_apply (x : Vec Ideal S8192x256 .f32) (w : Vec Ideal S256x512 .bf16) (r : Fin 8192) (e : Fin 512) :
    prod0 x w (ix2 r e) = ∑ k : Fin 256, x (ix2 r k) * w (ix2 k e) := rfl

theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

abbrev xblk (c : Dev nD) (t : Fin cfg0.N) : Vec Ideal S1024x256 .f32 := iblk0 V c 0 t
abbrev wblk1 (c : Dev nD) (t : Fin cfg0.N) : Vec Ideal S256x512 .bf16 := iblk0 V c 1 t
abbrev wblk2 (c : Dev nD) (t : Fin cfg0.N) : Vec Ideal S256x512 .bf16 := iblk0 V c 2 t
abbrev wblk3 (c : Dev nD) (t : Fin cfg0.N) : Vec Ideal S256x512 .bf16 := iblk0 V c 3 t
abbrev xarr (c : Dev nD) : Vec Ideal S8192x256 .f32 := V c main_v10
abbrev warr1 (c : Dev nD) : Vec Ideal S256x512 .bf16 := V c main_v3
abbrev warr2 (c : Dev nD) : Vec Ideal S256x512 .bf16 := V c main_v5
abbrev warr3 (c : Dev nD) : Vec Ideal S256x512 .bf16 := V c main_v7

theorem xblk_apply (c : Dev nD) (t : Fin cfg0.N) (p : Fin 1024) (k : Fin 256) (r : Fin 8192) (hr : r.val = t.val * 1024 + p.val) :
    xblk V c t (ix2 p k) = xarr V c (ix2 r k) := by
  obtain ⟨e0, e1, -⟩ := idx_facts0 t
  show V c main_v10 (((cfg0.win 0).blk t).view.emb (ix2 p k)) = V c main_v10 (ix2 r k)
  refine congrArg (V c main_v10) (funext fun a => Fin.ext ?_)
  match a with
  | ⟨0, _⟩ => show win0_0.index t (0 : Fin 2) * 1024 + 1 * p.val = r.val; omega
  | ⟨1, _⟩ => show win0_0.index t (1 : Fin 2) * 256 + 1 * k.val = k.val; omega

theorem wblk1_apply (c : Dev nD) (t : Fin cfg0.N) (k : Fin 256) (e : Fin 512) :
    wblk1 V c t (ix2 k e) = warr1 V c (ix2 k e) := by
  obtain ⟨-, -, e0, e1, -⟩ := idx_facts0 t
  show V c main_v3 (((cfg0.win 1).blk t).view.emb (ix2 k e)) = V c main_v3 (ix2 k e)
  refine congrArg (V c main_v3) (funext fun a => Fin.ext ?_)
  match a with
  | ⟨0, _⟩ => show win0_1.index t (0 : Fin 2) * 256 + 1 * k.val = k.val; omega
  | ⟨1, _⟩ => show win0_1.index t (1 : Fin 2) * 512 + 1 * e.val = e.val; omega
theorem wblk2_apply (c : Dev nD) (t : Fin cfg0.N) (k : Fin 256) (e : Fin 512) :
    wblk2 V c t (ix2 k e) = warr2 V c (ix2 k e) := by
  obtain ⟨-, -, -, -, e0, e1, -⟩ := idx_facts0 t
  show V c main_v5 (((cfg0.win 2).blk t).view.emb (ix2 k e)) = V c main_v5 (ix2 k e)
  refine congrArg (V c main_v5) (funext fun a => Fin.ext ?_)
  match a with
  | ⟨0, _⟩ => show win0_2.index t (0 : Fin 2) * 256 + 1 * k.val = k.val; omega
  | ⟨1, _⟩ => show win0_2.index t (1 : Fin 2) * 512 + 1 * e.val = e.val; omega
theorem wblk3_apply (c : Dev nD) (t : Fin cfg0.N) (k : Fin 256) (e : Fin 512) :
    wblk3 V c t (ix2 k e) = warr3 V c (ix2 k e) := by
  obtain ⟨-, -, -, -, -, -, e0, e1, -⟩ := idx_facts0 t
  show V c main_v7 (((cfg0.win 3).blk t).view.emb (ix2 k e)) = V c main_v7 (ix2 k e)
  refine congrArg (V c main_v7) (funext fun a => Fin.ext ?_)
  match a with
  | ⟨0, _⟩ => show win0_3.index t (0 : Fin 2) * 256 + 1 * k.val = k.val; omega
  | ⟨1, _⟩ => show win0_3.index t (1 : Fin 2) * 512 + 1 * e.val = e.val; omega

theorem sum_blk (x0 : Vec Ideal S1024x256 .f32) (w : Vec Ideal S256x512 .bf16) (X : Vec Ideal S8192x256 .f32) (W : Vec Ideal S256x512 .bf16)
    (p : Fin 1024) (e : Fin 512) (r : Fin 8192)
    (hx : ∀ k : Fin 256, x0 (ix2 p k) = X (ix2 r k)) (hw : ∀ k : Fin 256, w (ix2 k e) = W (ix2 k e)) :
    ∑ k : Fin 256, x0 (ix2 p k) * w (ix2 k e) = prod0 X W (ix2 r e) := by
  rw [prod0_apply]
  exact Finset.sum_congr rfl fun k _ => by rw [hx k, hw k]

theorem flushed0_4_eq (c : Dev nD) (t : Fin cfg0.N) :
    (dat0 V c).flushed 4 t = ((cfg0.win 4).blk t).view.read (Elt Ideal) (prod0 (V c main_v10) (V c main_v3)) := by
  show (cfg0.win 4).cut (grid0.coords t) ((dat0 V c).after 4 t) = _
  rw [after0_4]
  unfold out0_4
  rw [View.canon_unit_zero hz]
  simp only [View.ld_unit_zero (S := S1024x256) hz, View.ld_unit_zero (S := S256x512) hz]
  funext j
  obtain ⟨p, e, rfl⟩ : ∃ (p : Fin 1024) (e : Fin 512), j = ix2 p e := ⟨j 0, j 1, eq_ix2 j⟩
  have ht : t.val < 8 := lt_of_lt_of_eq t.isLt N_0
  obtain ⟨-, -, -, -, -, -, -, -, e0, e1, -⟩ := idx_facts0 t
  have hr : t.val * 1024 + p.val < 8192 := by have := p.isLt; omega
  have hi : ((cfg0.win 4).blk t).view.emb (ix2 p e) = ix2 (⟨t.val * 1024 + p.val, hr⟩ : Fin 8192) e := funext fun a => Fin.ext (by
    match a with
    | ⟨0, _⟩ => show win0_4.index t (0 : Fin 2) * 1024 + 1 * p.val = t.val * 1024 + p.val; omega
    | ⟨1, _⟩ => show win0_4.index t (1 : Fin 2) * 512 + 1 * e.val = e.val; omega)
  show (k0_pay2 (F := Ideal) (xblk V c t) (wblk1 V c t) : S1024x512.Idx → EReal) (ix2 p e)
    = prod0 (xarr V c) (warr1 V c) (((cfg0.win 4).blk t).view.emb (ix2 p e))
  rw [hi]
  exact (pay2_apply (xblk V c t) (wblk1 V c t) p e).trans
    (sum_blk (xblk V c t) (wblk1 V c t) (xarr V c) (warr1 V c) p e ⟨t.val * 1024 + p.val, hr⟩
      (fun k => xblk_apply V c t p k _ rfl) (fun k => wblk1_apply V c t k e))

theorem flushed0_5_eq (c : Dev nD) (t : Fin cfg0.N) :
    (dat0 V c).flushed 5 t = ((cfg0.win 5).blk t).view.read (Elt Ideal) (prod0 (V c main_v10) (V c main_v5)) := by
  show (cfg0.win 5).cut (grid0.coords t) ((dat0 V c).after 5 t) = _
  rw [after0_5]
  unfold out0_5
  rw [View.canon_unit_zero hz]
  simp only [View.ld_unit_zero (S := S1024x256) hz, View.ld_unit_zero (S := S256x512) hz]
  funext j
  obtain ⟨p, e, rfl⟩ : ∃ (p : Fin 1024) (e : Fin 512), j = ix2 p e := ⟨j 0, j 1, eq_ix2 j⟩
  have ht : t.val < 8 := lt_of_lt_of_eq t.isLt N_0
  obtain ⟨-, -, -, -, -, -, -, -, -, -, e0, e1, -⟩ := idx_facts0 t
  have hr : t.val * 1024 + p.val < 8192 := by have := p.isLt; omega
  have hi : ((cfg0.win 5).blk t).view.emb (ix2 p e) = ix2 (⟨t.val * 1024 + p.val, hr⟩ : Fin 8192) e := funext fun a => Fin.ext (by
    match a with
    | ⟨0, _⟩ => show win0_5.index t (0 : Fin 2) * 1024 + 1 * p.val = t.val * 1024 + p.val; omega
    | ⟨1, _⟩ => show win0_5.index t (1 : Fin 2) * 512 + 1 * e.val = e.val; omega)
  show (k0_pay3 (F := Ideal) (xblk V c t) (wblk2 V c t) : S1024x512.Idx → EReal) (ix2 p e)
    = prod0 (xarr V c) (warr2 V c) (((cfg0.win 5).blk t).view.emb (ix2 p e))
  rw [hi]
  exact (pay3_apply (xblk V c t) (wblk2 V c t) p e).trans
    (sum_blk (xblk V c t) (wblk2 V c t) (xarr V c) (warr2 V c) p e ⟨t.val * 1024 + p.val, hr⟩
      (fun k => xblk_apply V c t p k _ rfl) (fun k => wblk2_apply V c t k e))

theorem flushed0_6_eq (c : Dev nD) (t : Fin cfg0.N) :
    (dat0 V c).flushed 6 t = ((cfg0.win 6).blk t).view.read (Elt Ideal) (prod0 (V c main_v10) (V c main_v7)) := by
  show (cfg0.win 6).cut (grid0.coords t) ((dat0 V c).after 6 t) = _
  rw [after0_6]
  unfold out0_6
  rw [View.canon_unit_zero hz]
  simp only [View.ld_unit_zero (S := S1024x256) hz, View.ld_unit_zero (S := S256x512) hz]
  funext j
  obtain ⟨p, e, rfl⟩ : ∃ (p : Fin 1024) (e : Fin 512), j = ix2 p e := ⟨j 0, j 1, eq_ix2 j⟩
  have ht : t.val < 8 := lt_of_lt_of_eq t.isLt N_0
  obtain ⟨-, -, -, -, -, -, -, -, -, -, -, -, e0, e1⟩ := idx_facts0 t
  have hr : t.val * 1024 + p.val < 8192 := by have := p.isLt; omega
  have hi : ((cfg0.win 6).blk t).view.emb (ix2 p e) = ix2 (⟨t.val * 1024 + p.val, hr⟩ : Fin 8192) e := funext fun a => Fin.ext (by
    match a with
    | ⟨0, _⟩ => show win0_6.index t (0 : Fin 2) * 1024 + 1 * p.val = t.val * 1024 + p.val; omega
    | ⟨1, _⟩ => show win0_6.index t (1 : Fin 2) * 512 + 1 * e.val = e.val; omega)
  show (k0_pay4 (F := Ideal) (xblk V c t) (wblk3 V c t) : S1024x512.Idx → EReal) (ix2 p e)
    = prod0 (xarr V c) (warr3 V c) (((cfg0.win 6).blk t).view.emb (ix2 p e))
  rw [hi]
  exact (pay4_apply (xblk V c t) (wblk3 V c t) p e).trans
    (sum_blk (xblk V c t) (wblk3 V c t) (xarr V c) (warr3 V c) p e ⟨t.val * 1024 + p.val, hr⟩
      (fun k => xblk_apply V c t p k _ rfl) (fun k => wblk3_apply V c t k e))

theorem mem_blk0_4 (t : Fin cfg0.N) (i : S8192x512.Idx) :
    i ∈ ((cfg0.win 4).blk t).view.set ↔ ∀ a : Fin 2, win0_4.index t a * S1024x512.size a ≤ (i a).val ∧ (i a).val < win0_4.index t a * S1024x512.size a + S1024x512.size a := by
  show i ∈ ((View.whole main_v11_0).slice (win0_4.rect t)).set ↔ _
  rw [View.set_slice_whole, Rect.mem_set_unit]
  exact Iff.rfl
theorem mem_blk0_5 (t : Fin cfg0.N) (i : S8192x512.Idx) :
    i ∈ ((cfg0.win 5).blk t).view.set ↔ ∀ a : Fin 2, win0_5.index t a * S1024x512.size a ≤ (i a).val ∧ (i a).val < win0_5.index t a * S1024x512.size a + S1024x512.size a := by
  show i ∈ ((View.whole main_v11_1).slice (win0_5.rect t)).set ↔ _
  rw [View.set_slice_whole, Rect.mem_set_unit]
  exact Iff.rfl
theorem mem_blk0_6 (t : Fin cfg0.N) (i : S8192x512.Idx) :
    i ∈ ((cfg0.win 6).blk t).view.set ↔ ∀ a : Fin 2, win0_6.index t a * S1024x512.size a ≤ (i a).val ∧ (i a).val < win0_6.index t a * S1024x512.size a + S1024x512.size a := by
  show i ∈ ((View.whole main_v11_2).slice (win0_6.rect t)).set ↔ _
  rw [View.set_slice_whole, Rect.mem_set_unit]
  exact Iff.rfl

theorem cover0_4 (i : S8192x512.Idx) : ∃ t : Fin cfg0.N, (cfg0.win 4).flush t = true ∧ i ∈ ((cfg0.win 4).blk t).view.set := by
  have h0 : (i 0).val < 8192 := idx2_lt0 i
  have h1 : (i 1).val < 512 := idx2_lt1 i
  obtain ⟨t, ht⟩ : ∃ t : Fin cfg0.N, t.val = (i 0).val / 1024 := ⟨⟨(i 0).val / 1024, by rw [show cfg0.N = 8 from N_0]; omega⟩, rfl⟩
  refine ⟨t, flush0_4 t, ?_⟩
  rw [mem_blk0_4]
  obtain ⟨-, -, -, -, -, -, -, -, e0, e1, -⟩ := idx_facts0 t
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 512 ≤ (i 1).val ∧ (i 1).val < win0_4.index t (1 : Fin 2) * 512 + 512; omega
theorem cover0_5 (i : S8192x512.Idx) : ∃ t : Fin cfg0.N, (cfg0.win 5).flush t = true ∧ i ∈ ((cfg0.win 5).blk t).view.set := by
  have h0 : (i 0).val < 8192 := idx2_lt0 i
  have h1 : (i 1).val < 512 := idx2_lt1 i
  obtain ⟨t, ht⟩ : ∃ t : Fin cfg0.N, t.val = (i 0).val / 1024 := ⟨⟨(i 0).val / 1024, by rw [show cfg0.N = 8 from N_0]; omega⟩, rfl⟩
  refine ⟨t, flush0_5 t, ?_⟩
  rw [mem_blk0_5]
  obtain ⟨-, -, -, -, -, -, -, -, -, -, e0, e1, -⟩ := idx_facts0 t
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 512 ≤ (i 1).val ∧ (i 1).val < win0_5.index t (1 : Fin 2) * 512 + 512; omega
theorem cover0_6 (i : S8192x512.Idx) : ∃ t : Fin cfg0.N, (cfg0.win 6).flush t = true ∧ i ∈ ((cfg0.win 6).blk t).view.set := by
  have h0 : (i 0).val < 8192 := idx2_lt0 i
  have h1 : (i 1).val < 512 := idx2_lt1 i
  obtain ⟨t, ht⟩ : ∃ t : Fin cfg0.N, t.val = (i 0).val / 1024 := ⟨⟨(i 0).val / 1024, by rw [show cfg0.N = 8 from N_0]; omega⟩, rfl⟩
  refine ⟨t, flush0_6 t, ?_⟩
  rw [mem_blk0_6]
  obtain ⟨-, -, -, -, -, -, -, -, -, -, -, -, e0, e1⟩ := idx_facts0 t
  intro a
  match a with
  | ⟨0, _⟩ => show win0_6.index t (0 : Fin 2) * 1024 ≤ (i 0).val ∧ (i 0).val < win0_6.index t (0 : Fin 2) * 1024 + 1024; omega
  | ⟨1, _⟩ => show win0_6.index t (1 : Fin 2) * 512 ≤ (i 1).val ∧ (i 1).val < win0_6.index t (1 : Fin 2) * 512 + 512; omega

theorem arr0_4 (c : Dev nD) : (dat0 V c).arrAt 4 cfg0.N = prod0 (V c main_v10) (V c main_v3) :=
  (dat0 V c).arrAt_eq_of_cover 4 (prod0 (V c main_v10) (V c main_v3)) (fun t _ => flushed0_4_eq V c t) cover0_4
theorem arr0_5 (c : Dev nD) : (dat0 V c).arrAt 5 cfg0.N = prod0 (V c main_v10) (V c main_v5) :=
  (dat0 V c).arrAt_eq_of_cover 5 (prod0 (V c main_v10) (V c main_v5)) (fun t _ => flushed0_5_eq V c t) cover0_5
theorem arr0_6 (c : Dev nD) : (dat0 V c).arrAt 6 cfg0.N = prod0 (V c main_v10) (V c main_v7) :=
  (dat0 V c).arrAt_eq_of_cover 6 (prod0 (V c main_v10) (V c main_v7)) (fun t _ => flushed0_6_eq V c t) cover0_6

end Cert.KernelIdeal.Val0

end
-- ==== Proof.Value2.lean ====
import proofs.«403715_j42039139893702_3_alg».proof.Proof.Launch2
import Idealize.ShloMosaic.Lib.Pipeline.Value
import Idealize.ShloMosaic.Lib.ValueIdx
import Idealize.ShloMosaic.PureOps.Ideal.Laws

noncomputable section

namespace Cert.KernelIdeal.Val2

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

theorem lhs2_0 (i : S1024x256.Idx) (q : dot_S1024x512_S512x256_S1024x256_1_0_0_1_n_n.contr.Idx) :
    (dot_S1024x512_S512x256_S1024x256_1_0_0_1_n_n.lhsIdx i q 0).val = (i 0).val := by
  unfold DotDims.lhsIdx
  rw [dif_neg (show ¬(0 : Fin S1024x512.rank) ∈ dot_S1024x512_S512x256_S1024x256_1_0_0_1_n_n.lhsBatch by decide), dif_pos (show (0 : Fin S1024x512.rank) ∈ dot_S1024x512_S512x256_S1024x256_1_0_0_1_n_n.lhsNonContracting by decide)]
  rfl

theorem lhs2_1 (i : S1024x256.Idx) (q : dot_S1024x512_S512x256_S1024x256_1_0_0_1_n_n.contr.Idx) :
    (dot_S1024x512_S512x256_S1024x256_1_0_0_1_n_n.lhsIdx i q 1).val = (q ⟨0, by decide⟩).val :=
  dot_S1024x512_S512x256_S1024x256_1_0_0_1_n_n.lhsIdx_val_of_single rfl i q

theorem rhs2_0 (i : S1024x256.Idx) (q : dot_S1024x512_S512x256_S1024x256_1_0_0_1_n_n.contr.Idx) :
    (dot_S1024x512_S512x256_S1024x256_1_0_0_1_n_n.rhsIdx i q 0).val = (q ⟨0, by decide⟩).val :=
  dot_S1024x512_S512x256_S1024x256_1_0_0_1_n_n.rhsIdx_val_of_single rfl i q

theorem rhs2_1 (i : S1024x256.Idx) (q : dot_S1024x512_S512x256_S1024x256_1_0_0_1_n_n.contr.Idx) :
    (dot_S1024x512_S512x256_S1024x256_1_0_0_1_n_n.rhsIdx i q 1).val = (i 1).val := by
  unfold DotDims.rhsIdx
  rw [dif_neg (show ¬(1 : Fin S512x256.rank) ∈ dot_S1024x512_S512x256_S1024x256_1_0_0_1_n_n.rhsBatch by decide), dif_pos (show (1 : Fin S512x256.rank) ∈ dot_S1024x512_S512x256_S1024x256_1_0_0_1_n_n.rhsNonContracting by decide)]
  rfl

theorem pay2_apply (x : Vec Ideal S1024x512 .bf16) (y : Vec Ideal S512x256 .bf16) (p : Fin 1024) (e : Fin 256) :
    k2_pay1 (F := Ideal) x y (ix2 p e) = ∑ k : Fin 512, x (ix2 p k) * y (ix2 k e) := by
  unfold k2_pay1
  simp only [shapeCast_self]
  refine (Ideal.matmul_constant_zero_apply (φ₁ := .bf16) (φ₂ := .bf16) dot_S1024x512_S512x256_S1024x256_1_0_0_1_n_n none x y (ix2 p e)).trans ?_
  rw [← Equiv.sum_comp (contrEquiv1 dot_S1024x512_S512x256_S1024x256_1_0_0_1_n_n 512 rfl rfl).symm]
  refine Finset.sum_congr rfl fun k _ => ?_
  have hk := contrEquiv1_symm_val dot_S1024x512_S512x256_S1024x256_1_0_0_1_n_n 512 rfl rfl k
  have el : dot_S1024x512_S512x256_S1024x256_1_0_0_1_n_n.lhsIdx (ix2 p e) ((contrEquiv1 dot_S1024x512_S512x256_S1024x256_1_0_0_1_n_n 512 rfl rfl).symm k) = ix2 p k := funext fun a => Fin.ext (by
    match a with
    | ⟨0, _⟩ => exact lhs2_0 _ _
    | ⟨1, _⟩ => exact (lhs2_1 _ _).trans hk)
  have er : dot_S1024x512_S512x256_S1024x256_1_0_0_1_n_n.rhsIdx (ix2 p e) ((contrEquiv1 dot_S1024x512_S512x256_S1024x256_1_0_0_1_n_n 512 rfl rfl).symm k) = ix2 k e := funext fun a => Fin.ext (by
    match a with
    | ⟨0, _⟩ => exact (rhs2_0 _ _).trans hk
    | ⟨1, _⟩ => exact rhs2_1 _ _)
  rw [el, er]

def prod2 (a : Vec Ideal S8192x512 .bf16) (w : Vec Ideal S512x256 .bf16) : Vec Ideal S8192x256 .f32 :=
  fun i => ∑ k : Fin 512, a (ix2 (i 0 : Fin 8192) k) * w (ix2 k (i 1 : Fin 256))

theorem prod2_apply (a : Vec Ideal S8192x512 .bf16) (w : Vec Ideal S512x256 .bf16) (r : Fin 8192) (e : Fin 256) :
    prod2 a w (ix2 r e) = ∑ k : Fin 512, a (ix2 r k) * w (ix2 k e) := rfl

section
variable (V : (c : Dev nD) → (b : Ref sig .tc) → Buf (Elt Ideal) ((c : Thread nD τ).loc b))

theorem hz : (![0, 0] : Fin 2 → Nat) = fun _ => 0 := funext fun a => by fin_cases a <;> rfl

theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

abbrev ablk (c : Dev nD) (t : Fin cfg2.N) : Vec Ideal S1024x512 .bf16 := iblk2 V c 0 t
abbrev wblk (c : Dev nD) (t : Fin cfg2.N) : Vec Ideal S512x256 .bf16 := iblk2 V c 1 t
abbrev aarr (c : Dev nD) : Vec Ideal S8192x512 .bf16 := V c main_v24
abbrev warr (c : Dev nD) : Vec Ideal S512x256 .bf16 := V c main_v9

theorem ablk_apply (c : Dev nD) (t : Fin cfg2.N) (p : Fin 1024) (k : Fin 512) (r : Fin 8192) (hr : r.val = t.val * 1024 + p.val) :
    ablk V c t (ix2 p k) = aarr V c (ix2 r k) := by
  obtain ⟨e0, e1, -, -, -, -⟩ := idx_facts2 t
  show V c main_v24 (((cfg2.win 0).blk t).view.emb (ix2 p k)) = V c main_v24 (ix2 r k)
  have h : ((cfg2.win 0).blk t).view.emb (ix2 p k) = ix2 r k := by
    funext a; apply Fin.ext
    match a with
    | ⟨0, _⟩ => show win2_0.index t (0 : Fin 2) * 1024 + 1 * p.val = r.val; rw [e0, hr]; omega
    | ⟨1, _⟩ => show win2_0.index t (1 : Fin 2) * 512 + 1 * k.val = k.val; rw [e1]; omega
  rw [h]

theorem wblk_apply (c : Dev nD) (t : Fin cfg2.N) (k : Fin 512) (e : Fin 256) :
    wblk V c t (ix2 k e) = warr V c (ix2 k e) := by
  obtain ⟨-, -, e2, e3, -, -⟩ := idx_facts2 t
  show V c main_v9 (((cfg2.win 1).blk t).view.emb (ix2 k e)) = V c main_v9 (ix2 k e)
  have h : ((cfg2.win 1).blk t).view.emb (ix2 k e) = ix2 k e := by
    funext a; apply Fin.ext
    match a with
    | ⟨0, _⟩ => show win2_1.index t (0 : Fin 2) * 512 + 1 * k.val = k.val; rw [e2]; omega
    | ⟨1, _⟩ => show win2_1.index t (1 : Fin 2) * 256 + 1 * e.val = e.val; rw [e3]; omega
  rw [h]

theorem oblk_emb (t : Fin cfg2.N) (p : Fin 1024) (e : Fin 256) (r : Fin 8192) (hr : r.val = t.val * 1024 + p.val) :
    ((cfg2.win 2).blk t).view.emb (ix2 p e) = ix2 r e := by
  obtain ⟨-, -, -, -, e4, e5⟩ := idx_facts2 t
  funext a; apply Fin.ext
  match a with
  | ⟨0, _⟩ => show win2_2.index t (0 : Fin 2) * 1024 + 1 * p.val = r.val; rw [e4, hr]; omega
  | ⟨1, _⟩ => show win2_2.index t (1 : Fin 2) * 256 + 1 * e.val = e.val; rw [e5]; omega

theorem flushed2_eq (c : Dev nD) (t : Fin cfg2.N) :
    (dat2 V c).flushed 2 t = ((cfg2.win 2).blk t).view.read (Elt Ideal) (prod2 (V c main_v24) (V c main_v9)) := by
  show (cfg2.win 2).cut (grid2.coords t) ((dat2 V c).after 2 t) = _
  rw [after2_2]
  unfold out2_2
  rw [View.canon_unit_zero hz]
  simp only [View.ld_unit_zero (S := S1024x512) hz, View.ld_unit_zero (S := S512x256) hz]
  funext j
  obtain ⟨p, e, rfl⟩ : ∃ (p : Fin 1024) (e : Fin 256), j = ix2 p e := ⟨j 0, j 1, eq_ix2 (n0 := 1024) (n1 := 256) j⟩
  have ht : t.val < 8 := Nat.lt_of_lt_of_eq t.isLt N_2
  have hp : p.val < 1024 := p.isLt
  have hr : t.val * 1024 + p.val < 8192 := by omega
  show k2_pay1 (F := Ideal) (ablk V c t) (wblk V c t) (ix2 p e)
    = prod2 (aarr V c) (warr V c) (((cfg2.win 2).blk t).view.emb (ix2 p e))
  rw [oblk_emb t p e ⟨_, hr⟩ rfl, pay2_apply, prod2_apply]
  exact Finset.sum_congr rfl fun k _ => by rw [ablk_apply V c t p k ⟨_, hr⟩ rfl, wblk_apply V c t k e]

theorem mem_blk2 (t : Fin cfg2.N) (i : S8192x256.Idx) :
    i ∈ ((cfg2.win 2).blk t).view.set ↔ ∀ a : Fin 2, win2_2.index t a * S1024x256.size a ≤ (i a).val ∧ (i a).val < win2_2.index t a * S1024x256.size a + S1024x256.size a := by
  show i ∈ ((View.whole main_v25).slice (win2_2.rect t)).set ↔ _
  rw [View.set_slice_whole, Rect.mem_set_unit]
  exact Iff.rfl

theorem cover2 (i : S8192x256.Idx) : ∃ t : Fin cfg2.N, (cfg2.win 2).flush t = true ∧ i ∈ ((cfg2.win 2).blk t).view.set := by
  have hi0 : (i 0).val < 8192 := (i 0).isLt
  have hi1 : (i 1).val < 256 := (i 1).isLt
  have hq : (i 0).val / 1024 < 8 := by omega
  obtain ⟨t, htv⟩ : ∃ t : Fin cfg2.N, t.val = (i 0).val / 1024 := ⟨⟨(i 0).val / 1024, Nat.lt_of_lt_of_eq hq N_2.symm⟩, rfl⟩
  obtain ⟨-, -, -, -, e4, e5⟩ := idx_facts2 t
  refine ⟨t, flush2_2 t, ?_⟩
  rw [mem_blk2]
  intro a
  match a with
  | ⟨0, _⟩ => show win2_2.index t (0 : Fin 2) * 1024 ≤ (i 0).val ∧ (i 0).val < win2_2.index t (0 : Fin 2) * 1024 + 1024; rw [e4, htv]; omega
  | ⟨1, _⟩ => show win2_2.index t (1 : Fin 2) * 256 ≤ (i 1).val ∧ (i 1).val < win2_2.index t (1 : Fin 2) * 256 + 256; rw [e5]; omega

theorem arr2_2 (c : Dev nD) : (dat2 V c).arrAt 2 cfg2.N = prod2 (V c main_v24) (V c main_v9) :=
  (dat2 V c).arrAt_eq_of_cover 2 (prod2 (V c main_v24) (V c main_v9)) (fun t _ => flushed2_eq V c t) cover2

end

end Cert.KernelIdeal.Val2

end
-- ==== Proof.HostVal.lean ====
import proofs.«403715_j42039139893702_3_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal

noncomputable section

namespace Cert.KernelIdeal.HostVal

open Cert.KernelIdeal Cert.KernelIdeal.Gen Idealize.ShloMosaic Idealize.ShloMosaic.TcCoe Idealize.SL.Sem Idealize.ShloMosaic.ValueIdx

theorem eighth : Ideal.ofBits .f32 0x3E000000#32 = (((1 / 8 : ℝ) : ℝ) : EReal) := by
  simp [Ideal.ofBits, Ideal.ieee, -EReal.coe_mul]; norm_num

section Layout
variable {α : Type}

theorem tr_256x512 (x : S512x256.Idx → α) (k : Fin 256) (e : Fin 512) :
    transpose S256x512 [1, 0] x transposes_S512x256_S256x512_1_0 (ix2 k e) = x (ix2 e k) :=
  transpose_apply [1, 0] x transposes_S512x256_S256x512_1_0 (ix2 k e) (ix2 e k)
    (fun b => match b with | ⟨0, _⟩ => rfl | ⟨1, _⟩ => rfl)

theorem tr_512x256 (x : S256x512.Idx → α) (e : Fin 512) (c : Fin 256) :
    transpose S512x256 [1, 0] x transposes_S256x512_S512x256_1_0 (ix2 e c) = x (ix2 c e) :=
  transpose_apply [1, 0] x transposes_S256x512_S512x256_1_0 (ix2 e c) (ix2 c e)
    (fun b => match b with | ⟨0, _⟩ => rfl | ⟨1, _⟩ => rfl)

theorem tr_heads (x : S2x4096x8x64.Idx → α) (b : Fin 2) (h : Fin 8) (n : Fin 4096) (d : Fin 64) :
    transpose S2x8x4096x64 [0, 2, 1, 3] x transposes_S2x4096x8x64_S2x8x4096x64_0_2_1_3 (ix4 b h n d) = x (ix4 b n h d) :=
  transpose_apply [0, 2, 1, 3] x transposes_S2x4096x8x64_S2x8x4096x64_0_2_1_3 (ix4 b h n d) (ix4 b n h d)
    (fun a => match a with | ⟨0, _⟩ => rfl | ⟨1, _⟩ => rfl | ⟨2, _⟩ => rfl | ⟨3, _⟩ => rfl)

theorem tr_rows (x : S2x8x4096x64.Idx → α) (b : Fin 2) (n : Fin 4096) (h : Fin 8) (d : Fin 64) :
    transpose S2x4096x8x64 [0, 2, 1, 3] x transposes_S2x8x4096x64_S2x4096x8x64_0_2_1_3 (ix4 b n h d) = x (ix4 b h n d) :=
  transpose_apply [0, 2, 1, 3] x transposes_S2x8x4096x64_S2x4096x8x64_0_2_1_3 (ix4 b n h d) (ix4 b h n d)
    (fun a => match a with | ⟨0, _⟩ => rfl | ⟨1, _⟩ => rfl | ⟨2, _⟩ => rfl | ⟨3, _⟩ => rfl)

theorem rs_pixels (u : S2x4x32x32x256.Idx → α) (b : Fin 2) (t : Fin 4) (y x : Fin 32) (k : Fin 256) :
    shapeCast S8192x256 u shapeCasts_S2x4x32x32x256_S8192x256
        (ix2 (⟨((b.val * 4 + t.val) * 32 + y.val) * 32 + x.val, by omega⟩ : Fin 8192) k) = u (ix5 b t y x k) :=
  shapeCast_apply u shapeCasts_S2x4x32x32x256_S8192x256 _ (ix5 b t y x k)
    (by rw [Shape.rowMajor_val_five, Shape.rowMajor_val_two]; rfl)

theorem rs_unpixels (u : S8192x256.Idx → α) (b : Fin 2) (t : Fin 4) (y x : Fin 32) (k : Fin 256) :
    shapeCast S2x4x32x32x256 u shapeCasts_S8192x256_S2x4x32x32x256 (ix5 b t y x k)
      = u (ix2 (⟨((b.val * 4 + t.val) * 32 + y.val) * 32 + x.val, by omega⟩ : Fin 8192) k) :=
  shapeCast_apply u shapeCasts_S8192x256_S2x4x32x32x256 (ix5 b t y x k) _
    (by rw [Shape.rowMajor_val_five, Shape.rowMajor_val_two]; rfl)

theorem rs_split (u : S8192x512.Idx → α) (b : Fin 2) (n : Fin 4096) (h : Fin 8) (d : Fin 64) :
    shapeCast S2x4096x8x64 u shapeCasts_S8192x512_S2x4096x8x64 (ix4 b n h d)
      = u (ix2 (⟨b.val * 4096 + n.val, by omega⟩ : Fin 8192) (⟨h.val * 64 + d.val, by omega⟩ : Fin 512)) :=
  shapeCast_apply u shapeCasts_S8192x512_S2x4096x8x64 (ix4 b n h d) _
    (by rw [Shape.rowMajor_val_four, Shape.rowMajor_val_two]
        show (b.val * 4096 + n.val) * 512 + (h.val * 64 + d.val) = ((b.val * 4096 + n.val) * 8 + h.val) * 64 + d.val
        omega)

theorem rs_join (u : S2x4096x8x64.Idx → α) (b : Fin 2) (n : Fin 4096) (h : Fin 8) (d : Fin 64) :
    shapeCast S8192x512 u shapeCasts_S2x4096x8x64_S8192x512
        (ix2 (⟨b.val * 4096 + n.val, by omega⟩ : Fin 8192) (⟨h.val * 64 + d.val, by omega⟩ : Fin 512)) = u (ix4 b n h d) :=
  shapeCast_apply u shapeCasts_S2x4096x8x64_S8192x512 _ (ix4 b n h d)
    (by rw [Shape.rowMajor_val_four, Shape.rowMajor_val_two]
        show ((b.val * 4096 + n.val) * 8 + h.val) * 64 + d.val = (b.val * 4096 + n.val) * 512 + (h.val * 64 + d.val)
        omega)

theorem rs_merge (u : S2x8x4096x64.Idx → α) (b : Fin 2) (h : Fin 8) (n : Fin 4096) (d : Fin 64) :
    shapeCast S16x4096x64 u shapeCasts_S2x8x4096x64_S16x4096x64 (ix3 (⟨b.val * 8 + h.val, by omega⟩ : Fin 16) n d)
      = u (ix4 b h n d) :=
  shapeCast_apply u shapeCasts_S2x8x4096x64_S16x4096x64 _ (ix4 b h n d)
    (by rw [Shape.rowMajor_val_four, Shape.rowMajor_val_three]; rfl)

theorem rs_unmerge (u : S16x4096x64.Idx → α) (b : Fin 2) (h : Fin 8) (n : Fin 4096) (d : Fin 64) :
    shapeCast S2x8x4096x64 u shapeCasts_S16x4096x64_S2x8x4096x64 (ix4 b h n d)
      = u (ix3 (⟨b.val * 8 + h.val, by omega⟩ : Fin 16) n d) :=
  shapeCast_apply u shapeCasts_S16x4096x64_S2x8x4096x64 (ix4 b h n d) _
    (by rw [Shape.rowMajor_val_four, Shape.rowMajor_val_three]; rfl)

end Layout

variable (W : Valuation τ sig (Elt Ideal))

theorem h0_v3 (k : Fin 256) (e : Fin 512) :
    StableHlo.after hostOps0 W (Proc.devRef .tc main_v3) (ix2 k e)
      = HMul.hMul (α := EReal) (β := EReal) (γ := EReal) (W (Proc.devRef .tc main_arg1) (ix2 e k)) (Ideal.ofBits .f32 0x3E000000#32) := by
  have h : (StableHlo.after hostOps0 W (Proc.devRef .tc main_v3) : FVec Ideal S256x512 .bf16)
      = truncf (F := Ideal) .bf16 (transpose S256x512 [1, 0]
          (mulf (F := Ideal) (W (Proc.devRef .tc main_arg1) : FVec Ideal S512x256 .f32)
            (broadcastInDim S512x256 ![] bcast_S_S512x256 (constant (F := Ideal) S_ .f32 0x3E000000#32)))
          transposes_S512x256_S256x512_1_0) bitsLt_bf16_f32 := by
    after_results
  exact (congrFun h (ix2 k e)).trans (tr_256x512
    (mulf (F := Ideal) (W (Proc.devRef .tc main_arg1) : FVec Ideal S512x256 .f32)
      (broadcastInDim S512x256 ![] bcast_S_S512x256 (constant (F := Ideal) S_ .f32 0x3E000000#32))) k e)

theorem h0_v5 (k : Fin 256) (e : Fin 512) :
    StableHlo.after hostOps0 W (Proc.devRef .tc main_v5) (ix2 k e) = W (Proc.devRef .tc main_arg2) (ix2 e k) := by
  have h : (StableHlo.after hostOps0 W (Proc.devRef .tc main_v5) : FVec Ideal S256x512 .bf16)
      = truncf (F := Ideal) .bf16 (transpose S256x512 [1, 0] (W (Proc.devRef .tc main_arg2) : FVec Ideal S512x256 .f32)
          transposes_S512x256_S256x512_1_0) bitsLt_bf16_f32 := by
    after_results
  exact (congrFun h (ix2 k e)).trans (tr_256x512 _ k e)

theorem h0_v7 (k : Fin 256) (e : Fin 512) :
    StableHlo.after hostOps0 W (Proc.devRef .tc main_v7) (ix2 k e) = W (Proc.devRef .tc main_arg3) (ix2 e k) := by
  have h : (StableHlo.after hostOps0 W (Proc.devRef .tc main_v7) : FVec Ideal S256x512 .bf16)
      = truncf (F := Ideal) .bf16 (transpose S256x512 [1, 0] (W (Proc.devRef .tc main_arg3) : FVec Ideal S512x256 .f32)
          transposes_S512x256_S256x512_1_0) bitsLt_bf16_f32 := by
    after_results
  exact (congrFun h (ix2 k e)).trans (tr_256x512 _ k e)

theorem h0_v9 (e : Fin 512) (c : Fin 256) :
    StableHlo.after hostOps0 W (Proc.devRef .tc main_v9) (ix2 e c) = W (Proc.devRef .tc main_arg4) (ix2 c e) := by
  have h : (StableHlo.after hostOps0 W (Proc.devRef .tc main_v9) : FVec Ideal S512x256 .bf16)
      = truncf (F := Ideal) .bf16 (transpose S512x256 [1, 0] (W (Proc.devRef .tc main_arg4) : FVec Ideal S256x512 .f32)
          transposes_S256x512_S512x256_1_0) bitsLt_bf16_f32 := by
    after_results
  exact (congrFun h (ix2 e c)).trans (tr_512x256 _ e c)

theorem h0_v10 (b : Fin 2) (t : Fin 4) (y x : Fin 32) (k : Fin 256) :
    StableHlo.after hostOps0 W (Proc.devRef .tc main_v10)
        (ix2 (⟨((b.val * 4 + t.val) * 32 + y.val) * 32 + x.val, by omega⟩ : Fin 8192) k)
      = W (Proc.devRef .tc main_arg0) (ix5 b t y x k) := by
  have h : (StableHlo.after hostOps0 W (Proc.devRef .tc main_v10) : FVec Ideal S8192x256 .f32)
      = shapeCast S8192x256 (W (Proc.devRef .tc main_arg0) : FVec Ideal S2x4x32x32x256 .f32) shapeCasts_S2x4x32x32x256_S8192x256 := by
    after_results; rfl
  exact (congrFun h _).trans (rs_pixels _ b t y x k)

theorem h1_v14 (b : Fin 2) (h : Fin 8) (n : Fin 4096) (d : Fin 64) :
    StableHlo.after hostOps1 W (Proc.devRef .tc main_v14) (ix3 (⟨b.val * 8 + h.val, by omega⟩ : Fin 16) n d)
      = W (Proc.devRef .tc main_v11_0) (ix2 (⟨b.val * 4096 + n.val, by omega⟩ : Fin 8192) (⟨h.val * 64 + d.val, by omega⟩ : Fin 512)) := by
  have e : (StableHlo.after hostOps1 W (Proc.devRef .tc main_v14) : FVec Ideal S16x4096x64 .bf16)
      = shapeCast S16x4096x64 (transpose S2x8x4096x64 [0, 2, 1, 3]
          (shapeCast S2x4096x8x64 (W (Proc.devRef .tc main_v11_0) : FVec Ideal S8192x512 .bf16) shapeCasts_S8192x512_S2x4096x8x64)
          transposes_S2x4096x8x64_S2x8x4096x64_0_2_1_3) shapeCasts_S2x8x4096x64_S16x4096x64 := by
    after_results; rfl
  exact (congrFun e _).trans ((rs_merge _ b h n d).trans ((tr_heads _ b h n d).trans (rs_split _ b n h d)))

theorem h1_v17 (b : Fin 2) (h : Fin 8) (n : Fin 4096) (d : Fin 64) :
    StableHlo.after hostOps1 W (Proc.devRef .tc main_v17) (ix3 (⟨b.val * 8 + h.val, by omega⟩ : Fin 16) n d)
      = W (Proc.devRef .tc main_v11_1) (ix2 (⟨b.val * 4096 + n.val, by omega⟩ : Fin 8192) (⟨h.val * 64 + d.val, by omega⟩ : Fin 512)) := by
  have e : (StableHlo.after hostOps1 W (Proc.devRef .tc main_v17) : FVec Ideal S16x4096x64 .bf16)
      = shapeCast S16x4096x64 (transpose S2x8x4096x64 [0, 2, 1, 3]
          (shapeCast S2x4096x8x64 (W (Proc.devRef .tc main_v11_1) : FVec Ideal S8192x512 .bf16) shapeCasts_S8192x512_S2x4096x8x64)
          transposes_S2x4096x8x64_S2x8x4096x64_0_2_1_3) shapeCasts_S2x8x4096x64_S16x4096x64 := by
    after_results; rfl
  exact (congrFun e _).trans ((rs_merge _ b h n d).trans ((tr_heads _ b h n d).trans (rs_split _ b n h d)))

theorem h1_v20 (b : Fin 2) (h : Fin 8) (n : Fin 4096) (d : Fin 64) :
    StableHlo.after hostOps1 W (Proc.devRef .tc main_v20) (ix3 (⟨b.val * 8 + h.val, by omega⟩ : Fin 16) n d)
      = W (Proc.devRef .tc main_v11_2) (ix2 (⟨b.val * 4096 + n.val, by omega⟩ : Fin 8192) (⟨h.val * 64 + d.val, by omega⟩ : Fin 512)) := by
  have e : (StableHlo.after hostOps1 W (Proc.devRef .tc main_v20) : FVec Ideal S16x4096x64 .bf16)
      = shapeCast S16x4096x64 (transpose S2x8x4096x64 [0, 2, 1, 3]
          (shapeCast S2x4096x8x64 (W (Proc.devRef .tc main_v11_2) : FVec Ideal S8192x512 .bf16) shapeCasts_S8192x512_S2x4096x8x64)
          transposes_S2x4096x8x64_S2x8x4096x64_0_2_1_3) shapeCasts_S2x8x4096x64_S16x4096x64 := by
    after_results; rfl
  exact (congrFun e _).trans ((rs_merge _ b h n d).trans ((tr_heads _ b h n d).trans (rs_split _ b n h d)))

theorem h2_v24 (b : Fin 2) (h : Fin 8) (n : Fin 4096) (d : Fin 64) :
    StableHlo.after hostOps2 W (Proc.devRef .tc main_v24)
        (ix2 (⟨b.val * 4096 + n.val, by omega⟩ : Fin 8192) (⟨h.val * 64 + d.val, by omega⟩ : Fin 512))
      = W (Proc.devRef .tc main_v21) (ix3 (⟨b.val * 8 + h.val, by omega⟩ : Fin 16) n d) := by
  have e : (StableHlo.after hostOps2 W (Proc.devRef .tc main_v24) : FVec Ideal S8192x512 .bf16)
      = shapeCast S8192x512 (transpose S2x4096x8x64 [0, 2, 1, 3]
          (shapeCast S2x8x4096x64 (W (Proc.devRef .tc main_v21) : FVec Ideal S16x4096x64 .bf16) shapeCasts_S16x4096x64_S2x8x4096x64)
          transposes_S2x8x4096x64_S2x4096x8x64_0_2_1_3) shapeCasts_S2x4096x8x64_S8192x512 := by
    after_results; rfl
  exact (congrFun e _).trans ((rs_join _ b n h d).trans ((tr_rows _ b n h d).trans (rs_unmerge _ b h n d)))

theorem h3_v26 (b : Fin 2) (t : Fin 4) (y x : Fin 32) (k : Fin 256) :
    StableHlo.after hostOps3 W (Proc.devRef .tc main_v26) (ix5 b t y x k)
      = W (Proc.devRef .tc main_v25) (ix2 (⟨((b.val * 4 + t.val) * 32 + y.val) * 32 + x.val, by omega⟩ : Fin 8192) k) := by
  have e : (StableHlo.after hostOps3 W (Proc.devRef .tc main_v26) : FVec Ideal S2x4x32x32x256 .f32)
      = shapeCast S2x4x32x32x256 (W (Proc.devRef .tc main_v25) : FVec Ideal S8192x256 .f32) shapeCasts_S8192x256_S2x4x32x32x256 := by
    after_results; rfl
  exact (congrFun e _).trans (rs_unpixels _ b t y x k)

end Cert.KernelIdeal.HostVal

end
-- ==== Proof.FiniteInputs.lean ====
import proofs.«403715_j42039139893702_3_alg».proof.Defs
import proofs.«403715_j42039139893702_3_alg».proof.Proof.Gen.Pre_finite_inputs
import Idealize.ShloMosaic.Lib.ReduceAll
import Idealize.ShloMosaic.Lib.ValueIdx

noncomputable section

namespace Cert.KernelIdeal.Fin

open Idealize.ShloMosaic Idealize.SL.Sem

attribute [local instance] Cert.Pre_finite_inputs.Gen.facts

instance subsingleton_scalar_idx : Subsingleton Cert.Pre_finite_inputs.S_.Idx := ⟨fun a b => funext fun d => d.elim0⟩

theorem ofBits_inf : Ideal.ofBits .f32 0x7F800000#32 = (⊤ : EReal) := by
  simp [Ideal.ofBits, Ideal.ieee]

theorem ofBool_eq_one {b : Bool} : BitVec.ofBool b = 1#1 ↔ b = true := by cases b <;> decide

theorem cmp_olt_eq_one (x y : EReal) : Ideal.cmp .olt x y = 1#1 ↔ x < y := by
  simp only [Ideal.cmp, ofBool_eq_one, decide_eq_true_eq]

theorem real_of_abs_lt_top (x : EReal) (h : max x (-x) < ⊤) : ∃ r : ℝ, x = (r : EReal) := by
  induction x using EReal.rec with
  | bot => simp at h
  | coe r => exact ⟨r, rfl⟩
  | top => simp at h

theorem real_of_lane (x : Ideal .f32)
    (h : FloatOps.cmpf (F := Ideal) (φ := .f32) .olt (FloatOps.hostAbsf x)
      (FloatOps.ofBits .f32 0x7F800000#32) = 1#1) :
    ∃ r : ℝ, x = (r : EReal) := by
  have h' : Ideal.cmp .olt (max x (-x)) (Ideal.ofBits .f32 0x7F800000#32) = 1#1 := h
  rw [ofBits_inf, cmp_olt_eq_one] at h'
  exact real_of_abs_lt_top x h'

theorem exists_real_fun {ι : Type} (a : ι → EReal) (h : ∀ i, ∃ r : ℝ, a i = (r : EReal)) :
    ∃ X : ι → ℝ, a = fun i => ((X i : ℝ) : EReal) := by
  choose X hX using h
  exact ⟨X, funext hX⟩

theorem fn_real (a0 : FVec Ideal Cert.Pre_finite_inputs.S2x4x32x32x256 .f32)
    (a1 a2 a3 : FVec Ideal Cert.Pre_finite_inputs.S512x256 .f32)
    (a4 : FVec Ideal Cert.Pre_finite_inputs.S256x512 .f32)
    (h : Cert.Pre_finite_inputs.fn (F := Ideal) a0 a1 a2 a3 a4 = fun _ => 1#1) :
    (∀ i, ∃ r : ℝ, a0 i = (r : EReal)) ∧ (∀ i, ∃ r : ℝ, a1 i = (r : EReal))
      ∧ (∀ i, ∃ r : ℝ, a2 i = (r : EReal)) ∧ (∀ i, ∃ r : ℝ, a3 i = (r : EReal))
      ∧ (∀ i, ∃ r : ℝ, a4 i = (r : EReal)) := by
  have h0 := congrFun h ValueIdx.ix0
  dsimp only [Cert.Pre_finite_inputs.fn, Cert.Pre_finite_inputs.fn_part1, andi] at h0
  obtain ⟨h0123, e4⟩ := IntOp.andi_eq_one.1 h0
  obtain ⟨h012, e3⟩ := IntOp.andi_eq_one.1 h0123
  obtain ⟨h01, e2⟩ := IntOp.andi_eq_one.1 h012
  obtain ⟨e0, e1⟩ := IntOp.andi_eq_one.1 h01
  exact ⟨fun i => real_of_lane _ (Host.reduce_andi_all _ _ _ _ _ e0 i),
    fun i => real_of_lane _ (Host.reduce_andi_all _ _ _ _ _ e1 i),
    fun i => real_of_lane _ (Host.reduce_andi_all _ _ _ _ _ e2 i),
    fun i => real_of_lane _ (Host.reduce_andi_all _ _ _ _ _ e3 i),
    fun i => real_of_lane _ (Host.reduce_andi_all _ _ _ _ _ e4 i)⟩

section
variable (m : (ℓ : Loc Cert.KernelIdeal.nD Cert.KernelIdeal.τ Cert.KernelIdeal.sig) → Buf (Elt Ideal) ℓ)
  (h : Cert.Pre_KernelIdeal (hPre_finite_inputs := Cert.Pre_finite_inputs.Gen.facts) m) (c : Dev Cert.KernelIdeal.nD)
include h

/-- Under the precondition every argument array holds reals. -/
theorem real_arg0 : ∃ X : Cert.KernelIdeal.S2x4x32x32x256.Idx → ℝ,
    m ((c.tc : Thread Cert.KernelIdeal.nD Cert.KernelIdeal.τ).loc Cert.KernelIdeal.main_arg0) = fun i => ((X i : ℝ) : EReal) :=
  exists_real_fun _ (fn_real _ _ _ _ _ (h c)).1
theorem real_arg1 : ∃ X : Cert.KernelIdeal.S512x256.Idx → ℝ,
    m ((c.tc : Thread Cert.KernelIdeal.nD Cert.KernelIdeal.τ).loc Cert.KernelIdeal.main_arg1) = fun i => ((X i : ℝ) : EReal) :=
  exists_real_fun _ (fn_real _ _ _ _ _ (h c)).2.1
theorem real_arg2 : ∃ X : Cert.KernelIdeal.S512x256.Idx → ℝ,
    m ((c.tc : Thread Cert.KernelIdeal.nD Cert.KernelIdeal.τ).loc Cert.KernelIdeal.main_arg2) = fun i => ((X i : ℝ) : EReal) :=
  exists_real_fun _ (fn_real _ _ _ _ _ (h c)).2.2.1
theorem real_arg3 : ∃ X : Cert.KernelIdeal.S512x256.Idx → ℝ,
    m ((c.tc : Thread Cert.KernelIdeal.nD Cert.KernelIdeal.τ).loc Cert.KernelIdeal.main_arg3) = fun i => ((X i : ℝ) : EReal) :=
  exists_real_fun _ (fn_real _ _ _ _ _ (h c)).2.2.2.1
theorem real_arg4 : ∃ X : Cert.KernelIdeal.S256x512.Idx → ℝ,
    m ((c.tc : Thread Cert.KernelIdeal.nD Cert.KernelIdeal.τ).loc Cert.KernelIdeal.main_arg4) = fun i => ((X i : ℝ) : EReal) :=
  exists_real_fun _ (fn_real _ _ _ _ _ (h c)).2.2.2.2
end

end Cert.KernelIdeal.Fin

end
-- ==== Proof.Spec.lean ====
import Idealize.ShloMosaic.PureOps.Ideal

noncomputable section

namespace Cert.Spec

open BigOperators

def row (b : Fin 2) (n : Fin 4096) : Fin 8192 := ⟨b.val * 4096 + n.val, by omega⟩
def col (h : Fin 8) (d : Fin 64) : Fin 512 := ⟨h.val * 64 + d.val, by omega⟩

def proj (X : Fin 8192 → Fin 256 → ℝ) (W : Fin 512 → Fin 256 → ℝ) (r : Fin 8192) (e : Fin 512) : ℝ :=
  ∑ c : Fin 256, X r c * W e c

def score (Q K : Fin 8192 → Fin 512 → ℝ) (b : Fin 2) (h : Fin 8) (n m : Fin 4096) : ℝ :=
  (∑ d : Fin 64, Q (row b n) (col h d) * K (row b m) (col h d)) * (1 / 8)

def attn (Q K Vv : Fin 8192 → Fin 512 → ℝ) (b : Fin 2) (h : Fin 8) (n : Fin 4096) (d : Fin 64) : ℝ :=
  (∑ m : Fin 4096, Real.exp (score Q K b h n m) * Vv (row b m) (col h d))
    / (∑ m : Fin 4096, Real.exp (score Q K b h n m))

def attnFlat (Q K Vv : Fin 8192 → Fin 512 → ℝ) (r : Fin 8192) (e : Fin 512) : ℝ :=
  attn Q K Vv ⟨r.val / 4096, by omega⟩ ⟨e.val / 64, by omega⟩ ⟨r.val % 4096, by omega⟩ ⟨e.val % 64, by omega⟩

def out (X : Fin 8192 → Fin 256 → ℝ) (Wq Wk Wv : Fin 512 → Fin 256 → ℝ) (Wo : Fin 256 → Fin 512 → ℝ)
    (r : Fin 8192) (c : Fin 256) : ℝ :=
  ∑ e : Fin 512, attnFlat (proj X Wq) (proj X Wk) (proj X Wv) r e * Wo c e

end Cert.Spec

end
-- ==== Proof.SoftmaxMath.lean ====
import Idealize.ShloMosaic.PureOps.Ideal

open BigOperators

noncomputable section

namespace Cert.SoftmaxMath

theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem div_coe_coe (a b : ℝ) (hb : b ≠ 0) :
    Idealize.ShloMosaic.Ideal.div (a : EReal) (b : EReal) = ((a / b : ℝ) : EReal) := by
  rw [Idealize.ShloMosaic.Ideal.div_coe hb, ← EReal.coe_mul, mul_one_div]

theorem max_coe_coe (a b : ℝ) : max (a : EReal) (b : EReal) = ((max a b : ℝ) : EReal) :=
  (EReal.coe_strictMono.monotone.map_max).symm

theorem exp_sub_eq_mul (x c : ℝ) : Real.exp (x - c) = Real.exp x * Real.exp (-c) := by
  rw [sub_eq_add_neg, Real.exp_add]

theorem sum_exp_sub_mul {ι : Type} (t : Finset ι) (s v : ι → ℝ) (c : ℝ) :
    ∑ m ∈ t, Real.exp (s m - c) * v m = (∑ m ∈ t, Real.exp (s m) * v m) * Real.exp (-c) := by
  rw [Finset.sum_mul]
  refine Finset.sum_congr rfl fun m _ => ?_
  rw [exp_sub_eq_mul]; ring

theorem sum_exp_sub {ι : Type} (t : Finset ι) (s : ι → ℝ) (c : ℝ) :
    ∑ m ∈ t, Real.exp (s m - c) = (∑ m ∈ t, Real.exp (s m)) * Real.exp (-c) := by
  rw [Finset.sum_mul]
  exact Finset.sum_congr rfl fun m _ => exp_sub_eq_mul _ _

theorem shifted_ratio {ι : Type} [Fintype ι] (s v : ι → ℝ) (c : ℝ) :
    (∑ m, Real.exp (s m - c) * v m) / (∑ m, Real.exp (s m - c))
      = (∑ m, Real.exp (s m) * v m) / (∑ m, Real.exp (s m)) := by
  rw [sum_exp_sub_mul, sum_exp_sub, mul_div_mul_right _ _ (Real.exp_pos _).ne']

theorem softmax_avg_shift {ι : Type} [Fintype ι] (s v : ι → ℝ) (c : ℝ) :
    ∑ m, (Real.exp (s m - c) / ∑ m', Real.exp (s m' - c)) * v m
      = (∑ m, Real.exp (s m) * v m) / (∑ m, Real.exp (s m)) := by
  rw [← shifted_ratio s v c, Finset.sum_div]
  exact Finset.sum_congr rfl fun m _ => div_mul_eq_mul_div _ _ _

theorem online_sums {P : ℕ} (s v : ℕ → Fin P → ℝ) (M L A : ℕ → ℝ) (hL0 : L 0 = 0) (hA0 : A 0 = 0)
    (hL : ∀ j, L (j + 1) = Real.exp (M j - M (j + 1)) * L j + ∑ p, Real.exp (s j p - M (j + 1)))
    (hA : ∀ j, A (j + 1) = Real.exp (M j - M (j + 1)) * A j
      + ∑ p, Real.exp (s j p - M (j + 1)) * v j p) (J : ℕ) :
    L J = ∑ j ∈ Finset.range J, ∑ p, Real.exp (s j p - M J)
      ∧ A J = ∑ j ∈ Finset.range J, ∑ p, Real.exp (s j p - M J) * v j p := by
  induction J with
  | zero => simp [hL0, hA0]
  | succ J ih =>
    obtain ⟨ihL, ihA⟩ := ih

    have hre : ∀ x : ℝ, Real.exp (M J - M (J + 1)) * Real.exp (x - M J)
        = Real.exp (x - M (J + 1)) := fun x => by
      rw [← Real.exp_add]; congr 1; ring
    constructor
    · rw [hL J, ihL, Finset.sum_range_succ, Finset.mul_sum]
      congr 1
      refine Finset.sum_congr rfl fun j _ => ?_
      rw [Finset.mul_sum]
      exact Finset.sum_congr rfl fun p _ => hre _
    · rw [hA J, ihA, Finset.sum_range_succ, Finset.mul_sum]
      congr 1
      refine Finset.sum_congr rfl fun j _ => ?_
      rw [Finset.mul_sum]
      refine Finset.sum_congr rfl fun p _ => ?_
      rw [← mul_assoc, hre]

theorem online_ratio {P : ℕ} (s v : ℕ → Fin P → ℝ) (M L A : ℕ → ℝ) (hL0 : L 0 = 0) (hA0 : A 0 = 0)
    (hL : ∀ j, L (j + 1) = Real.exp (M j - M (j + 1)) * L j + ∑ p, Real.exp (s j p - M (j + 1)))
    (hA : ∀ j, A (j + 1) = Real.exp (M j - M (j + 1)) * A j
      + ∑ p, Real.exp (s j p - M (j + 1)) * v j p) (J : ℕ) :
    A J / L J = (∑ j ∈ Finset.range J, ∑ p, Real.exp (s j p) * v j p)
      / (∑ j ∈ Finset.range J, ∑ p, Real.exp (s j p)) := by
  obtain ⟨hLJ, hAJ⟩ := online_sums s v M L A hL0 hA0 hL hA J
  have hN : ∑ j ∈ Finset.range J, ∑ p, Real.exp (s j p - M J) * v j p
      = (∑ j ∈ Finset.range J, ∑ p, Real.exp (s j p) * v j p) * Real.exp (-(M J)) := by
    rw [Finset.sum_mul]
    exact Finset.sum_congr rfl fun j _ => sum_exp_sub_mul _ _ _ _
  have hD : ∑ j ∈ Finset.range J, ∑ p, Real.exp (s j p - M J)
      = (∑ j ∈ Finset.range J, ∑ p, Real.exp (s j p)) * Real.exp (-(M J)) := by
    rw [Finset.sum_mul]
    exact Finset.sum_congr rfl fun j _ => sum_exp_sub _ _ _
  rw [hAJ, hLJ, hN, hD, mul_div_mul_right _ _ (Real.exp_pos _).ne']

theorem sum_blocks (f : Fin 4096 → ℝ) :
    ∑ m : Fin 4096, f m
      = ∑ j ∈ Finset.range 8, ∑ p : Fin 512,
          f ⟨(512 * j + p.val) % 4096, Nat.mod_lt _ (by norm_num)⟩ := by
  rw [Finset.sum_range (fun j => ∑ p : Fin 512,
    f ⟨(512 * j + p.val) % 4096, Nat.mod_lt _ (by norm_num)⟩)]
  rw [← Equiv.sum_comp (finProdFinEquiv : Fin 8 × Fin 512 ≃ Fin 4096) f, Fintype.sum_prod_type]
  refine Finset.sum_congr rfl fun j _ => Finset.sum_congr rfl fun p _ => ?_
  congr 1
  apply Fin.ext
  have hj := j.isLt
  have hp := p.isLt
  show (p.val + 512 * j.val) = (512 * j.val + p.val) % 4096
  omega

theorem sum_exp_pos {ι : Type} [Fintype ι] [Nonempty ι] (s : ι → ℝ) : 0 < ∑ m, Real.exp (s m) :=
  Finset.sum_pos (fun m _ => Real.exp_pos _) Finset.univ_nonempty

end Cert.SoftmaxMath

end
-- ==== Proof.RefAttn.lean ====
import proofs.«403715_j42039139893702_3_alg».proof.Proof.Gen.ReferenceIdeal.Read
import proofs.«403715_j42039139893702_3_alg».proof.Proof.Spec
import proofs.«403715_j42039139893702_3_alg».proof.Proof.SoftmaxMath

open BigOperators

noncomputable section

namespace Cert.ReferenceIdeal.RefAttn

open Cert.ReferenceIdeal Cert.ReferenceIdeal.Gen Idealize.ShloMosaic Idealize.ShloMosaic.TcCoe Idealize.SL.Sem
  Idealize.ShloMosaic.StableHlo Idealize.ShloMosaic.ValueIdx

theorem lidx9 (b : Fin 2) (h : Fin 8) (n m : Fin 4096) (k : Fin 64) :
    Read.lidx_main_v9 (ix4 b h n m) k = ix4 b h n k :=
  funext fun a => Fin.ext (by match a with | ⟨0, _⟩ => rfl | ⟨1, _⟩ => rfl | ⟨2, _⟩ => rfl | ⟨3, _⟩ => rfl)

theorem ridx9 (b : Fin 2) (h : Fin 8) (n m : Fin 4096) (k : Fin 64) :
    Read.ridx_main_v9 (ix4 b h n m) k = ix4 b h m k :=
  funext fun a => Fin.ext (by match a with | ⟨0, _⟩ => rfl | ⟨1, _⟩ => rfl | ⟨2, _⟩ => rfl | ⟨3, _⟩ => rfl)

theorem idx15_16 (b : Fin 2) (h : Fin 8) (n m : Fin 4096) :
    Read.idx_main_v15 (Read.idx_main_v16 (ix4 b h n m)) = ix3 b h n :=
  funext fun a => Fin.ext (by match a with | ⟨0, _⟩ => rfl | ⟨1, _⟩ => rfl | ⟨2, _⟩ => rfl)

theorem idx19 (b : Fin 2) (h : Fin 8) (n k : Fin 4096) :
    Read.idx_main_v19 (ix3 b h n) k = ix4 b h n k :=
  funext fun a => Fin.ext (by match a with | ⟨0, _⟩ => rfl | ⟨1, _⟩ => rfl | ⟨2, _⟩ => rfl | ⟨3, _⟩ => rfl)

theorem idx20_21 (b : Fin 2) (h : Fin 8) (n m : Fin 4096) :
    Read.idx_main_v20 (Read.idx_main_v21 (ix4 b h n m)) = ix3 b h n :=
  funext fun a => Fin.ext (by match a with | ⟨0, _⟩ => rfl | ⟨1, _⟩ => rfl | ⟨2, _⟩ => rfl)

theorem lidx23 (b : Fin 2) (h : Fin 8) (n : Fin 4096) (d : Fin 64) (m : Fin 4096) :
    Read.lidx_main_v23 (ix4 b h n d) m = ix4 b h n m :=
  funext fun a => Fin.ext (by match a with | ⟨0, _⟩ => rfl | ⟨1, _⟩ => rfl | ⟨2, _⟩ => rfl | ⟨3, _⟩ => rfl)

theorem ridx23 (b : Fin 2) (h : Fin 8) (n : Fin 4096) (d : Fin 64) (m : Fin 4096) :
    Read.ridx_main_v23 (ix4 b h n d) m = ix4 b h m d :=
  funext fun a => Fin.ext (by match a with | ⟨0, _⟩ => rfl | ⟨1, _⟩ => rfl | ⟨2, _⟩ => rfl | ⟨3, _⟩ => rfl)

theorem scale_eq : FloatOps.ofBits (F := Ideal) .f32 0x3E000000#32 = (((1 : ℝ) / 8 : ℝ) : EReal) := by
  show Ideal.ofBits .f32 0x3E000000#32 = _
  simp [Ideal.ofBits, Ideal.ieee, -EReal.coe_mul]; norm_num

theorem neg_inf_eq : FloatOps.ofBits (F := Ideal) .f32 0xFF800000#32 = (⊥ : EReal) := by
  show Ideal.ofBits .f32 0xFF800000#32 = _
  simp [Ideal.ofBits, Ideal.ieee]

theorem fold_maximumf_real {ι : Type} (t : Finset ι) (f : ι → EReal) (hf : ∀ k, ∃ r : ℝ, f k = (r : EReal)) :
    t = ∅ ∨ ∃ r : ℝ, t.fold (FloatOps.maximumf (F := Ideal) (φ := .f32)) (⊥ : EReal) f = (r : EReal) := by
  classical
  induction t using Finset.induction_on with
  | empty => exact Or.inl rfl
  | insert a s ha ih =>
    right
    obtain ⟨ra, hra⟩ := hf a
    rw [Finset.fold_insert ha, hra, Ideal.maximumf_def]
    rcases ih with rfl | ⟨r, hr⟩
    · exact ⟨ra, by rw [Finset.fold_empty]; exact max_bot_right _⟩
    · exact ⟨max ra r, by rw [hr, Cert.SoftmaxMath.max_coe_coe]⟩

variable (x0 : (⟨S2x4x32x32x256, .f32⟩ : BufTy).Contents (Elt Ideal))
  (x1 x2 x3 : (⟨S512x256, .f32⟩ : BufTy).Contents (Elt Ideal))
  (Q K Vv : Fin 8192 → Fin 512 → ℝ)

theorem score_real
    (hq : ∀ (b : Fin 2) (h : Fin 8) (n : Fin 4096) (d : Fin 64),
      Read.val_main_v2 (F := Ideal) x0 x1 (ix4 b h n d) = ((Q (Cert.Spec.row b n) (Cert.Spec.col h d) : ℝ) : EReal))
    (hk : ∀ (b : Fin 2) (h : Fin 8) (n : Fin 4096) (d : Fin 64),
      Read.val_main_v5 (F := Ideal) x0 x2 (ix4 b h n d) = ((K (Cert.Spec.row b n) (Cert.Spec.col h d) : ℝ) : EReal))
    (b : Fin 2) (h : Fin 8) (n m : Fin 4096) :
    Read.val_main_v11 (F := Ideal) x0 x1 x2 (ix4 b h n m) = ((Cert.Spec.score Q K b h n m : ℝ) : EReal) := by
  rw [Read.val_main_v11_apply, Read.val_main_v9_apply, Read.val_main_v10_apply, Read.val_main_cst_apply, scale_eq,
    Ideal.mulf_def]
  unfold Cert.Spec.score
  rw [EReal.coe_mul, Cert.SoftmaxMath.coe_sum]
  congr 1
  refine Finset.sum_congr rfl fun k _ => ?_
  rw [lidx9, ridx9, hq, hk, EReal.coe_mul]

theorem score_is_real
    (hq : ∀ (b : Fin 2) (h : Fin 8) (n : Fin 4096) (d : Fin 64),
      Read.val_main_v2 (F := Ideal) x0 x1 (ix4 b h n d) = ((Q (Cert.Spec.row b n) (Cert.Spec.col h d) : ℝ) : EReal))
    (hk : ∀ (b : Fin 2) (h : Fin 8) (n : Fin 4096) (d : Fin 64),
      Read.val_main_v5 (F := Ideal) x0 x2 (ix4 b h n d) = ((K (Cert.Spec.row b n) (Cert.Spec.col h d) : ℝ) : EReal))
    (i : S2x8x4096x4096.Idx) : ∃ r : ℝ, Read.val_main_v11 (F := Ideal) x0 x1 x2 i = (r : EReal) := by
  obtain ⟨b, h, n, m, rfl⟩ : ∃ (b : Fin 2) (h : Fin 8) (n m : Fin 4096), i = ix4 b h n m :=
    ⟨i 0, i 1, i 2, i 3, eq_ix4 i⟩
  exact ⟨_, score_real x0 x1 x2 Q K hq hk b h n m⟩

theorem rowmax_real
    (hq : ∀ (b : Fin 2) (h : Fin 8) (n : Fin 4096) (d : Fin 64),
      Read.val_main_v2 (F := Ideal) x0 x1 (ix4 b h n d) = ((Q (Cert.Spec.row b n) (Cert.Spec.col h d) : ℝ) : EReal))
    (hk : ∀ (b : Fin 2) (h : Fin 8) (n : Fin 4096) (d : Fin 64),
      Read.val_main_v5 (F := Ideal) x0 x2 (ix4 b h n d) = ((K (Cert.Spec.row b n) (Cert.Spec.col h d) : ℝ) : EReal))
    (b : Fin 2) (h : Fin 8) (n : Fin 4096) :
    ∃ c : ℝ, Read.val_main_v14 (F := Ideal) x0 x1 x2 (ix3 b h n) = (c : EReal) := by
  have hreal := score_is_real x0 x1 x2 Q K hq hk
  rw [Read.val_main_v14_apply, Read.val_main_v13_apply, Read.val_main_cst_1_apply, neg_inf_eq, Ideal.maximumf_def,
    max_bot_left]
  unfold Read.val_main_v12
  generalize Read.val_main_v11 (F := Ideal) x0 x1 x2 = y at hreal ⊢
  have hred : S2x8x4096x4096.Reduces [3] S2x8x4096 := by decide
  rcases fold_maximumf_real (Finset.univ : Finset (Fin (S2x8x4096x4096.size 3))) (y ∘ hred.lift (ix3 b h n))
    (fun k => hreal _) with h0 | ⟨r, hr⟩
  · have hne : Nonempty (Fin (S2x8x4096x4096.size 3)) := ⟨(⟨0, by norm_num⟩ : Fin 4096)⟩
    exact absurd h0 (@Finset.univ_nonempty (Fin (S2x8x4096x4096.size 3)) _ hne).ne_empty
  · refine ⟨r, (Host.reduce_eq_fold_single (FloatOps.maximumf (F := Ideal) (φ := .f32)) y
      (Read.val_main_cst_0 (F := Ideal)) reducesTo_S2x8x4096x4096_S2x8x4096_d3 hred h_S_ (ix3 b h n)).trans ?_⟩
    rw [Read.val_main_cst_0_apply, neg_inf_eq]
    exact hr

theorem exp_real
    (hq : ∀ (b : Fin 2) (h : Fin 8) (n : Fin 4096) (d : Fin 64),
      Read.val_main_v2 (F := Ideal) x0 x1 (ix4 b h n d) = ((Q (Cert.Spec.row b n) (Cert.Spec.col h d) : ℝ) : EReal))
    (hk : ∀ (b : Fin 2) (h : Fin 8) (n : Fin 4096) (d : Fin 64),
      Read.val_main_v5 (F := Ideal) x0 x2 (ix4 b h n d) = ((K (Cert.Spec.row b n) (Cert.Spec.col h d) : ℝ) : EReal))
    (b : Fin 2) (h : Fin 8) (n : Fin 4096) (c : ℝ)
    (hc : Read.val_main_v14 (F := Ideal) x0 x1 x2 (ix3 b h n) = (c : EReal)) (m : Fin 4096) :
    Read.val_main_v18 (F := Ideal) x0 x1 x2 (ix4 b h n m)
      = ((Real.exp (Cert.Spec.score Q K b h n m - c) : ℝ) : EReal) := by
  rw [Read.val_main_v18_apply, Read.val_main_v17_apply, Read.val_main_v16_apply, Read.val_main_v15_apply, idx15_16, hc,
    score_real x0 x1 x2 Q K hq hk, Ideal.hostUnary_exp_def, Ideal.subf_def, ← EReal.coe_sub]
  rfl

theorem denom_real
    (hq : ∀ (b : Fin 2) (h : Fin 8) (n : Fin 4096) (d : Fin 64),
      Read.val_main_v2 (F := Ideal) x0 x1 (ix4 b h n d) = ((Q (Cert.Spec.row b n) (Cert.Spec.col h d) : ℝ) : EReal))
    (hk : ∀ (b : Fin 2) (h : Fin 8) (n : Fin 4096) (d : Fin 64),
      Read.val_main_v5 (F := Ideal) x0 x2 (ix4 b h n d) = ((K (Cert.Spec.row b n) (Cert.Spec.col h d) : ℝ) : EReal))
    (b : Fin 2) (h : Fin 8) (n : Fin 4096) (c : ℝ)
    (hc : Read.val_main_v14 (F := Ideal) x0 x1 x2 (ix3 b h n) = (c : EReal)) :
    Read.val_main_v19 (F := Ideal) x0 x1 x2 (ix3 b h n)
      = ((∑ m : Fin 4096, Real.exp (Cert.Spec.score Q K b h n m - c) : ℝ) : EReal) := by
  rw [Read.val_main_v19_apply, Read.val_main_cst_2_apply, Ideal.ofBits_def, Ideal.ofBits_zero_f32, zero_add,
    Cert.SoftmaxMath.coe_sum]
  refine Finset.sum_congr rfl fun m _ => ?_
  rw [idx19, exp_real x0 x1 x2 Q K hq hk b h n c hc m]

theorem weight_real
    (hq : ∀ (b : Fin 2) (h : Fin 8) (n : Fin 4096) (d : Fin 64),
      Read.val_main_v2 (F := Ideal) x0 x1 (ix4 b h n d) = ((Q (Cert.Spec.row b n) (Cert.Spec.col h d) : ℝ) : EReal))
    (hk : ∀ (b : Fin 2) (h : Fin 8) (n : Fin 4096) (d : Fin 64),
      Read.val_main_v5 (F := Ideal) x0 x2 (ix4 b h n d) = ((K (Cert.Spec.row b n) (Cert.Spec.col h d) : ℝ) : EReal))
    (b : Fin 2) (h : Fin 8) (n : Fin 4096) (c : ℝ)
    (hc : Read.val_main_v14 (F := Ideal) x0 x1 x2 (ix3 b h n) = (c : EReal)) (m : Fin 4096) :
    Read.val_main_v22 (F := Ideal) x0 x1 x2 (ix4 b h n m)
      = ((Real.exp (Cert.Spec.score Q K b h n m - c)
          / ∑ m' : Fin 4096, Real.exp (Cert.Spec.score Q K b h n m' - c) : ℝ) : EReal) := by
  have hpos : (∑ m' : Fin 4096, Real.exp (Cert.Spec.score Q K b h n m' - c)) ≠ 0 :=
    (Cert.SoftmaxMath.sum_exp_pos (fun m' : Fin 4096 => Cert.Spec.score Q K b h n m' - c)).ne'
  rw [Read.val_main_v22_apply, Read.val_main_v21_apply, Read.val_main_v20_apply, idx20_21,
    denom_real x0 x1 x2 Q K hq hk b h n c hc, exp_real x0 x1 x2 Q K hq hk b h n c hc m, Ideal.hostDivf_def,
    Cert.SoftmaxMath.div_coe_coe _ _ hpos]

theorem attn_real
    (hq : ∀ (b : Fin 2) (h : Fin 8) (n : Fin 4096) (d : Fin 64),
      Read.val_main_v2 (F := Ideal) x0 x1 (ix4 b h n d) = ((Q (Cert.Spec.row b n) (Cert.Spec.col h d) : ℝ) : EReal))
    (hk : ∀ (b : Fin 2) (h : Fin 8) (n : Fin 4096) (d : Fin 64),
      Read.val_main_v5 (F := Ideal) x0 x2 (ix4 b h n d) = ((K (Cert.Spec.row b n) (Cert.Spec.col h d) : ℝ) : EReal))
    (hv : ∀ (b : Fin 2) (h : Fin 8) (n : Fin 4096) (d : Fin 64),
      Read.val_main_v8 (F := Ideal) x0 x3 (ix4 b h n d) = ((Vv (Cert.Spec.row b n) (Cert.Spec.col h d) : ℝ) : EReal))
    (b : Fin 2) (h : Fin 8) (n : Fin 4096) (d : Fin 64) :
    Read.val_main_v23 (F := Ideal) x0 x1 x2 x3 (ix4 b h n d) = ((Cert.Spec.attn Q K Vv b h n d : ℝ) : EReal) := by
  obtain ⟨c, hc⟩ := rowmax_real x0 x1 x2 Q K hq hk b h n
  rw [Read.val_main_v23_apply]
  have hterm : ∀ m : Fin 4096,
      Read.val_main_v22 (F := Ideal) x0 x1 x2 (Read.lidx_main_v23 (ix4 b h n d) m)
        * Read.val_main_v8 (F := Ideal) x0 x3 (Read.ridx_main_v23 (ix4 b h n d) m)
      = (((Real.exp (Cert.Spec.score Q K b h n m - c)
          / ∑ m' : Fin 4096, Real.exp (Cert.Spec.score Q K b h n m' - c))
          * Vv (Cert.Spec.row b m) (Cert.Spec.col h d) : ℝ) : EReal) := fun m => by
    rw [lidx23, ridx23, weight_real x0 x1 x2 Q K hq hk b h n c hc m, hv, EReal.coe_mul]
  rw [Finset.sum_congr rfl fun m _ => hterm m, ← Cert.SoftmaxMath.coe_sum]
  exact congrArg (fun r : ℝ => (r : EReal))
    (Cert.SoftmaxMath.softmax_avg_shift (fun m : Fin 4096 => Cert.Spec.score Q K b h n m)
      (fun m : Fin 4096 => Vv (Cert.Spec.row b m) (Cert.Spec.col h d)) c)

end Cert.ReferenceIdeal.RefAttn

end
-- ==== Proof.RefVal.lean ====
import proofs.«403715_j42039139893702_3_alg».proof.Defs
import proofs.«403715_j42039139893702_3_alg».proof.Proof.Gen.ReferenceIdeal.Run
import proofs.«403715_j42039139893702_3_alg».proof.Proof.Gen.ReferenceIdeal.Read
import proofs.«403715_j42039139893702_3_alg».proof.Proof.Spec
import proofs.«403715_j42039139893702_3_alg».proof.Proof.SoftmaxMath
import proofs.«403715_j42039139893702_3_alg».proof.Proof.RefAttn

noncomputable section

namespace Cert.ReferenceIdeal.RefVal

open Cert.ReferenceIdeal Idealize.ShloMosaic Idealize.ShloMosaic.ValueIdx
open scoped BigOperators

def flatX (X5 : S2x4x32x32x256.Idx → ℝ) : Fin 8192 → Fin 256 → ℝ :=
  fun r c => X5 (ix5 ⟨r.val / 4096, by omega⟩ ⟨r.val / 1024 % 4, by omega⟩ ⟨r.val / 32 % 32, by omega⟩
    ⟨r.val % 32, by omega⟩ c)

def mat (W2 : S512x256.Idx → ℝ) : Fin 512 → Fin 256 → ℝ := fun e c => W2 (ix2 e c)

def matO (Wo2 : S256x512.Idx → ℝ) : Fin 256 → Fin 512 → ℝ := fun c e => Wo2 (ix2 c e)

theorem lidx_q (b : Fin 2) (h : Fin 8) (n : Fin 4096) (d : Fin 64) (c : Fin 256) :
    Read.lidx_main_v0 (Read.idx_main_v1 (Read.idx_main_v2 (ix4 b h n d))) c
      = ix5 ⟨(Cert.Spec.row b n).val / 4096, by omega⟩ ⟨(Cert.Spec.row b n).val / 1024 % 4, by omega⟩
          ⟨(Cert.Spec.row b n).val / 32 % 32, by omega⟩ ⟨(Cert.Spec.row b n).val % 32, by omega⟩ c := by
  funext a
  refine Fin.ext ?_
  match a with
  | ⟨0, _⟩ =>
    show (((b.val * 4096 + n.val) * 8 + h.val) * 64 + d.val) / 2097152 = (b.val * 4096 + n.val) / 4096
    omega
  | ⟨1, _⟩ =>
    show (((b.val * 4096 + n.val) * 8 + h.val) * 64 + d.val) / 524288 % 4 = (b.val * 4096 + n.val) / 1024 % 4
    omega
  | ⟨2, _⟩ =>
    show (((b.val * 4096 + n.val) * 8 + h.val) * 64 + d.val) / 16384 % 32 = (b.val * 4096 + n.val) / 32 % 32
    omega
  | ⟨3, _⟩ =>
    show (((b.val * 4096 + n.val) * 8 + h.val) * 64 + d.val) / 512 % 32 = (b.val * 4096 + n.val) % 32
    omega
  | ⟨4, _⟩ => rfl

theorem ridx_q (b : Fin 2) (h : Fin 8) (n : Fin 4096) (d : Fin 64) (c : Fin 256) :
    Read.ridx_main_v0 (Read.idx_main_v1 (Read.idx_main_v2 (ix4 b h n d))) c = ix2 (Cert.Spec.col h d) c := by
  funext a
  refine Fin.ext ?_
  match a with
  | ⟨0, _⟩ =>
    show (((b.val * 4096 + n.val) * 8 + h.val) * 64 + d.val) % 512 = h.val * 64 + d.val
    omega
  | ⟨1, _⟩ => rfl

theorem lidx_k (b : Fin 2) (h : Fin 8) (n : Fin 4096) (d : Fin 64) (c : Fin 256) :
    Read.lidx_main_v3 (Read.idx_main_v4 (Read.idx_main_v5 (ix4 b h n d))) c
      = ix5 ⟨(Cert.Spec.row b n).val / 4096, by omega⟩ ⟨(Cert.Spec.row b n).val / 1024 % 4, by omega⟩
          ⟨(Cert.Spec.row b n).val / 32 % 32, by omega⟩ ⟨(Cert.Spec.row b n).val % 32, by omega⟩ c :=
  lidx_q b h n d c

theorem ridx_k (b : Fin 2) (h : Fin 8) (n : Fin 4096) (d : Fin 64) (c : Fin 256) :
    Read.ridx_main_v3 (Read.idx_main_v4 (Read.idx_main_v5 (ix4 b h n d))) c = ix2 (Cert.Spec.col h d) c :=
  ridx_q b h n d c

theorem lidx_v (b : Fin 2) (h : Fin 8) (n : Fin 4096) (d : Fin 64) (c : Fin 256) :
    Read.lidx_main_v6 (Read.idx_main_v7 (Read.idx_main_v8 (ix4 b h n d))) c
      = ix5 ⟨(Cert.Spec.row b n).val / 4096, by omega⟩ ⟨(Cert.Spec.row b n).val / 1024 % 4, by omega⟩
          ⟨(Cert.Spec.row b n).val / 32 % 32, by omega⟩ ⟨(Cert.Spec.row b n).val % 32, by omega⟩ c :=
  lidx_q b h n d c

theorem ridx_v (b : Fin 2) (h : Fin 8) (n : Fin 4096) (d : Fin 64) (c : Fin 256) :
    Read.ridx_main_v6 (Read.idx_main_v7 (Read.idx_main_v8 (ix4 b h n d))) c = ix2 (Cert.Spec.col h d) c :=
  ridx_q b h n d c

theorem proj_real_q (X5 : S2x4x32x32x256.Idx → ℝ) (W2 : S512x256.Idx → ℝ) (b : Fin 2) (h : Fin 8) (n : Fin 4096)
    (d : Fin 64) :
    Read.val_main_v2 (F := Ideal) (fun i => ((X5 i : ℝ) : EReal)) (fun i => ((W2 i : ℝ) : EReal)) (ix4 b h n d)
      = ((Cert.Spec.proj (flatX X5) (mat W2) (Cert.Spec.row b n) (Cert.Spec.col h d) : ℝ) : EReal) := by
  rw [Read.val_main_v2_apply, Read.val_main_v1_apply, Read.val_main_v0_apply]
  unfold Cert.Spec.proj
  rw [Cert.SoftmaxMath.coe_sum]
  refine Finset.sum_congr rfl fun c _ => ?_
  rw [EReal.coe_mul, lidx_q, ridx_q]
  rfl

theorem proj_real_k (X5 : S2x4x32x32x256.Idx → ℝ) (W2 : S512x256.Idx → ℝ) (b : Fin 2) (h : Fin 8) (n : Fin 4096)
    (d : Fin 64) :
    Read.val_main_v5 (F := Ideal) (fun i => ((X5 i : ℝ) : EReal)) (fun i => ((W2 i : ℝ) : EReal)) (ix4 b h n d)
      = ((Cert.Spec.proj (flatX X5) (mat W2) (Cert.Spec.row b n) (Cert.Spec.col h d) : ℝ) : EReal) := by
  rw [Read.val_main_v5_apply, Read.val_main_v4_apply, Read.val_main_v3_apply]
  unfold Cert.Spec.proj
  rw [Cert.SoftmaxMath.coe_sum]
  refine Finset.sum_congr rfl fun c _ => ?_
  rw [EReal.coe_mul, lidx_k, ridx_k]
  rfl

theorem proj_real_v (X5 : S2x4x32x32x256.Idx → ℝ) (W2 : S512x256.Idx → ℝ) (b : Fin 2) (h : Fin 8) (n : Fin 4096)
    (d : Fin 64) :
    Read.val_main_v8 (F := Ideal) (fun i => ((X5 i : ℝ) : EReal)) (fun i => ((W2 i : ℝ) : EReal)) (ix4 b h n d)
      = ((Cert.Spec.proj (flatX X5) (mat W2) (Cert.Spec.row b n) (Cert.Spec.col h d) : ℝ) : EReal) := by
  rw [Read.val_main_v8_apply, Read.val_main_v7_apply, Read.val_main_v6_apply]
  unfold Cert.Spec.proj
  rw [Cert.SoftmaxMath.coe_sum]
  refine Finset.sum_congr rfl fun c _ => ?_
  rw [EReal.coe_mul, lidx_v, ridx_v]
  rfl

theorem idx_merge (b : Fin 2) (t : Fin 4) (y x : Fin 32) (k : Fin 256) (e : Fin 512) :
    Read.idx_main_v24 (Read.idx_main_v25 (Read.lidx_main_v26 (ix5 b t y x k) e))
      = ix4 (n0 := 2) (n1 := 8) (n2 := 4096) (n3 := 64)
          ⟨(((b.val * 4 + t.val) * 32 + y.val) * 32 + x.val) / 4096, by omega⟩ ⟨e.val / 64, by omega⟩
          ⟨(((b.val * 4 + t.val) * 32 + y.val) * 32 + x.val) % 4096, by omega⟩ ⟨e.val % 64, by omega⟩ := by
  funext a
  refine Fin.ext ?_
  match a with
  | ⟨0, _⟩ =>
    show ((((b.val * 4 + t.val) * 32 + y.val) * 32 + x.val) * 512 + e.val) / 2097152 = (((b.val * 4 + t.val) * 32 + y.val) * 32 + x.val) / 4096
    omega
  | ⟨1, _⟩ =>
    show ((((b.val * 4 + t.val) * 32 + y.val) * 32 + x.val) * 512 + e.val) / 64 % 8 = e.val / 64
    omega
  | ⟨2, _⟩ =>
    show ((((b.val * 4 + t.val) * 32 + y.val) * 32 + x.val) * 512 + e.val) / 512 % 4096 = (((b.val * 4 + t.val) * 32 + y.val) * 32 + x.val) % 4096
    omega
  | ⟨3, _⟩ =>
    show ((((b.val * 4 + t.val) * 32 + y.val) * 32 + x.val) * 512 + e.val) % 64 = e.val % 64
    omega

theorem ridx_o (b : Fin 2) (t : Fin 4) (y x : Fin 32) (k : Fin 256) (e : Fin 512) :
    Read.ridx_main_v26 (ix5 b t y x k) e = ix2 k e := by
  funext a
  match a with
  | ⟨0, _⟩ => rfl
  | ⟨1, _⟩ => rfl

theorem ref_out_of_attn (X5 : S2x4x32x32x256.Idx → ℝ) (Wq2 Wk2 Wv2 : S512x256.Idx → ℝ) (Wo2 : S256x512.Idx → ℝ)
    (hattn : ∀ (b : Fin 2) (h : Fin 8) (n : Fin 4096) (d : Fin 64),
      Read.val_main_v23 (F := Ideal) (fun i => ((X5 i : ℝ) : EReal)) (fun i => ((Wq2 i : ℝ) : EReal))
          (fun i => ((Wk2 i : ℝ) : EReal)) (fun i => ((Wv2 i : ℝ) : EReal)) (ix4 b h n d)
        = ((Cert.Spec.attn (Cert.Spec.proj (flatX X5) (mat Wq2)) (Cert.Spec.proj (flatX X5) (mat Wk2))
            (Cert.Spec.proj (flatX X5) (mat Wv2)) b h n d : ℝ) : EReal))
    (b : Fin 2) (t : Fin 4) (y x : Fin 32) (k : Fin 256) :
    Read.val_main_v26 (F := Ideal) (fun i => ((X5 i : ℝ) : EReal)) (fun i => ((Wq2 i : ℝ) : EReal))
        (fun i => ((Wk2 i : ℝ) : EReal)) (fun i => ((Wv2 i : ℝ) : EReal)) (fun i => ((Wo2 i : ℝ) : EReal))
        (ix5 b t y x k)
      = ((Cert.Spec.out (flatX X5) (mat Wq2) (mat Wk2) (mat Wv2) (matO Wo2)
          ⟨((b.val * 4 + t.val) * 32 + y.val) * 32 + x.val, by omega⟩ k : ℝ) : EReal) := by
  rw [Read.val_main_v26_apply]
  unfold Cert.Spec.out
  rw [Cert.SoftmaxMath.coe_sum]
  refine Finset.sum_congr rfl fun e _ => ?_
  rw [EReal.coe_mul, Read.val_main_v25_apply, Read.val_main_v24_apply, idx_merge, ridx_o, hattn]
  rfl

theorem ref_out (X5 : S2x4x32x32x256.Idx → ℝ) (Wq2 Wk2 Wv2 : S512x256.Idx → ℝ) (Wo2 : S256x512.Idx → ℝ)
    (b : Fin 2) (t : Fin 4) (y x : Fin 32) (k : Fin 256) :
    Read.val_main_v26 (F := Ideal) (fun i => ((X5 i : ℝ) : EReal)) (fun i => ((Wq2 i : ℝ) : EReal))
        (fun i => ((Wk2 i : ℝ) : EReal)) (fun i => ((Wv2 i : ℝ) : EReal)) (fun i => ((Wo2 i : ℝ) : EReal))
        (ix5 b t y x k)
      = ((Cert.Spec.out (flatX X5) (mat Wq2) (mat Wk2) (mat Wv2) (matO Wo2)
          ⟨((b.val * 4 + t.val) * 32 + y.val) * 32 + x.val, by omega⟩ k : ℝ) : EReal) :=
  ref_out_of_attn X5 Wq2 Wk2 Wv2 Wo2
    (Cert.ReferenceIdeal.RefAttn.attn_real _ _ _ _ (Cert.Spec.proj (flatX X5) (mat Wq2))
      (Cert.Spec.proj (flatX X5) (mat Wk2)) (Cert.Spec.proj (flatX X5) (mat Wv2))
      (proj_real_q X5 Wq2) (proj_real_k X5 Wk2) (proj_real_v X5 Wv2)) b t y x k

end Cert.ReferenceIdeal.RefVal

end
-- ==== Proof.Launch1Pieces.lean ====
import proofs.«403715_j42039139893702_3_alg».proof.Proof.Launch1
import Idealize.ShloMosaic.Lib.Pipeline.Value
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The new row maximum: the larger of the old one and the largest of the block's 512 scores. -/
def stepM (q : Vec F S1x1024x64 .bf16) (k : Vec F S1x512x64 .bf16) (mx : Vec F S1024x1 .f32) : Vec F S1024x1 .f32 :=
  k1_pay2 (k1_pay9 q k mx)

/-- The new row sum: exp(old max − new max) · old sum + Σ exp(score − new max) over the block's 512 scores. -/
def stepL (q : Vec F S1x1024x64 .bf16) (k : Vec F S1x512x64 .bf16) (mx l : Vec F S1024x1 .f32) : Vec F S1024x1 .f32 :=
  k1_pay12 q k mx mx l

/-- The new weighted sum: exp(old max − new max) · old weighted sum + weights · value block. -/
def stepA (q : Vec F S1x1024x64 .bf16) (k v : Vec F S1x512x64 .bf16) (mx : Vec F S1024x1 .f32) (a : Vec F S1024x64 .f32) :
    Vec F S1024x64 .f32 :=
  k1_pay1 (k1_pay7 v) (k1_pay13 q k mx) a (k1_pay14 q k mx mx)

/-- The stored output block: weighted sum over row sum. -/
def outO (a : Vec F S1024x64 .f32) (l : Vec F S1024x1 .f32) : Vec F S1x1024x64 .bf16 := k1_pay3 a l

/-- The values a first key block resets the three buffers to. -/
def initM : Vec F S1024x1 .f32 := k1_pay4
def initL : Vec F S1024x1 .f32 := k1_pay5
def initA : Vec F S1024x64 .f32 := k1_pay6

theorem zeros2 : (![0, 0] : Fin 2 → Nat) = fun _ => 0 := funext fun a => by fin_cases a <;> rfl
theorem zeros3 : (![0, 0, 0] : Fin 3 → Nat) = fun _ => 0 := funext fun a => by fin_cases a <;> rfl

section
variable (c : Dev nD) (i : grid1.Coords) (arg3 : Memref sig .tc .vmem S1x1024x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x1024x64 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole)

/-- First key block: each buffer's reset value is stored, read back, and one step from it stored over it. -/
theorem sout1_A_eq (hcF : condF i) (hcL : ¬condL i) (x0 : Vec F S1x1024x64 .bf16) (x1 x2 : Vec F S1x512x64 .bf16) :
    sout1_A c i arg3 harg3 arg4 harg4 arg5 harg5 arg6 harg6 arg7 harg7 arg8 harg8 arg9 harg9 hcF hcL x0 x1 x2 = (stepM x0 x1 initM, stepL x0 x1 initM initL, stepA x0 x1 x2 initM initA) := by
  unfold sout1_A stepM stepL stepA initM initL initA
  rw [View.read_writes_eq_canon _ _ _ (scover1_A_0 c i arg3 harg3 arg4 harg4 arg5 harg5 arg6 harg6 arg7 harg7 arg8 harg8 arg9 harg9 hcF hcL x0 x1 x2), View.read_writes_eq_canon _ _ _ (scover1_A_1 c i arg3 harg3 arg4 harg4 arg5 harg5 arg6 harg6 arg7 harg7 arg8 harg8 arg9 harg9 hcF hcL x0 x1 x2), View.read_writes_eq_canon _ _ _ (scover1_A_2 c i arg3 harg3 arg4 harg4 arg5 harg5 arg6 harg6 arg7 harg7 arg8 harg8 arg9 harg9 hcF hcL x0 x1 x2)]
  unfold kernelRun1_A
  dsimp only
  sl_unfold_words
  refine Prod.ext ?_ (Prod.ext ?_ ?_) <;> dsimp only <;>
    (first | rw [View.canon_cons_unit_zero (S := S1024x64) zeros2] | rw [View.canon_cons_unit_zero (S := S1024x1) zeros2]) <;>
    simp only [View.readAt_eq_ld, harg3.read_unread, harg4.read_unread, harg5.read_unread, harg7.read_unread, harg8.read_unread, harg9.read_unread, View.ld_unit_zero (S := S1x1024x64) zeros3, View.ld_unit_zero (S := S1x512x64) zeros3, View.ld_unit_zero (S := S1024x1) zeros2, View.ld_unit_zero (S := S1024x64) zeros2, View.readCov_unit_zero (S := S1024x1) _ zeros2, View.readCov_unit_zero (S := S1024x64) _ zeros2]

/-- A middle key block: one step from the buffers' contents. -/
theorem sout1_B_eq (hcF : ¬condF i) (hcL : ¬condL i) (x0 : Vec F S1x1024x64 .bf16) (x1 x2 : Vec F S1x512x64 .bf16) (xs0 xs1 : Vec F S1024x1 .f32) (xs2 : Vec F S1024x64 .f32) :
    sout1_B c i arg3 harg3 arg4 harg4 arg5 harg5 arg6 harg6 arg7 harg7 arg8 harg8 arg9 harg9 hcF hcL x0 x1 x2 xs0 xs1 xs2 = (stepM x0 x1 xs0, stepL x0 x1 xs0 xs1, stepA x0 x1 x2 xs0 xs2) := by
  unfold sout1_B stepM stepL stepA
  rw [View.read_writes_eq_canon _ _ _ (scover1_B_0 c i arg3 harg3 arg4 harg4 arg5 harg5 arg6 harg6 arg7 harg7 arg8 harg8 arg9 harg9 hcF hcL x0 x1 x2 xs0 xs1 xs2), View.read_writes_eq_canon _ _ _ (scover1_B_1 c i arg3 harg3 arg4 harg4 arg5 harg5 arg6 harg6 arg7 harg7 arg8 harg8 arg9 harg9 hcF hcL x0 x1 x2 xs0 xs1 xs2), View.read_writes_eq_canon _ _ _ (scover1_B_2 c i arg3 harg3 arg4 harg4 arg5 harg5 arg6 harg6 arg7 harg7 arg8 harg8 arg9 harg9 hcF hcL x0 x1 x2 xs0 xs1 xs2)]
  unfold kernelRun1_B
  dsimp only
  sl_unfold_words
  refine Prod.ext ?_ (Prod.ext ?_ ?_) <;> dsimp only <;> rw [View.canon_unit_zero zeros2] <;> simp only [View.readAt_eq_ld, harg3.read_unread, harg4.read_unread, harg5.read_unread, harg7.read_unread, harg8.read_unread, harg9.read_unread, View.ld_unit_zero (S := S1x1024x64) zeros3, View.ld_unit_zero (S := S1x512x64) zeros3, View.ld_unit_zero (S := S1024x1) zeros2, View.ld_unit_zero (S := S1024x64) zeros2, View.readCov_unit_zero (S := S1024x1) _ zeros2, View.readCov_unit_zero (S := S1024x64) _ zeros2]

/-- The last key block: the same step, and the stored block is the quotient of the new weighted sum by the new row sum, both read back from their stores. -/
theorem sout1_C_eq (hcF : ¬condF i) (hcL : condL i) (x0 : Vec F S1x1024x64 .bf16) (x1 x2 : Vec F S1x512x64 .bf16) (xs0 xs1 : Vec F S1024x1 .f32) (xs2 : Vec F S1024x64 .f32) :
    sout1_C c i arg3 harg3 arg4 harg4 arg5 harg5 arg6 harg6 arg7 harg7 arg8 harg8 arg9 harg9 hcF hcL x0 x1 x2 xs0 xs1 xs2 = (outO (stepA x0 x1 x2 xs0 xs2) (stepL x0 x1 xs0 xs1), stepM x0 x1 xs0, stepL x0 x1 xs0 xs1, stepA x0 x1 x2 xs0 xs2) := by
  unfold sout1_C outO stepM stepL stepA
  rw [View.read_writes_eq_canon _ _ _ (cover1_C_3 c i arg3 harg3 arg4 harg4 arg5 harg5 arg6 harg6 arg7 harg7 arg8 harg8 arg9 harg9 hcF hcL x0 x1 x2 xs0 xs1 xs2), View.read_writes_eq_canon _ _ _ (scover1_C_0 c i arg3 harg3 arg4 harg4 arg5 harg5 arg6 harg6 arg7 harg7 arg8 harg8 arg9 harg9 hcF hcL x0 x1 x2 xs0 xs1 xs2), View.read_writes_eq_canon _ _ _ (scover1_C_1 c i arg3 harg3 arg4 harg4 arg5 harg5 arg6 harg6 arg7 harg7 arg8 harg8 arg9 harg9 hcF hcL x0 x1 x2 xs0 xs1 xs2), View.read_writes_eq_canon _ _ _ (scover1_C_2 c i arg3 harg3 arg4 harg4 arg5 harg5 arg6 harg6 arg7 harg7 arg8 harg8 arg9 harg9 hcF hcL x0 x1 x2 xs0 xs1 xs2)]
  unfold kernelRun1_C
  dsimp only
  sl_unfold_words
  refine Prod.ext ?_ (Prod.ext ?_ (Prod.ext ?_ ?_)) <;> dsimp only <;>
    (first | rw [View.canon_unit_zero zeros3] | rw [View.canon_unit_zero zeros2]) <;> simp only [View.readAt_eq_ld, harg3.read_unread, harg4.read_unread, harg5.read_unread, harg7.read_unread, harg8.read_unread, harg9.read_unread, View.ld_unit_zero (S := S1x1024x64) zeros3, View.ld_unit_zero (S := S1x512x64) zeros3, View.ld_unit_zero (S := S1024x1) zeros2, View.ld_unit_zero (S := S1024x64) zeros2, View.readCov_unit_zero (S := S1024x1) _ zeros2, View.readCov_unit_zero (S := S1024x64) _ zeros2]
end

section
variable (V : (c : Dev nD) → (b : Ref sig .tc) → Buf (Elt F) ((c : Thread nD τ).loc b))

theorem st1_first (c : Dev nD) (t : Fin cfg1.N) (hF : t.val % 8 = 0) :
    (outsAt1 V c t.val t.isLt).2 = (stepM (iblk1 V c 0 t) (iblk1 V c 1 t) initM, stepL (iblk1 V c 0 t) (iblk1 V c 1 t) initM initL, stepA (iblk1 V c 0 t) (iblk1 V c 1 t) (iblk1 V c 2 t) initM initA) := by
  rw [outsAt1_A V c t hF (by omega)]
  exact sout1_A_eq c _ _ _ _ _ _ _ _ _ _ _ _ _ _ _ _ _ _ _ _

theorem st1_next (c : Dev nD) (t : Fin cfg1.N) (hF : ¬t.val % 8 = 0) :
    (outsAt1 V c t.val t.isLt).2 = (stepM (iblk1 V c 0 t) (iblk1 V c 1 t) (outsAt1 V c (t.val - 1) (prevLt t)).2.1, stepL (iblk1 V c 0 t) (iblk1 V c 1 t) (outsAt1 V c (t.val - 1) (prevLt t)).2.1 (outsAt1 V c (t.val - 1) (prevLt t)).2.2.1, stepA (iblk1 V c 0 t) (iblk1 V c 1 t) (iblk1 V c 2 t) (outsAt1 V c (t.val - 1) (prevLt t)).2.1 (outsAt1 V c (t.val - 1) (prevLt t)).2.2.2) := by
  by_cases hL : t.val % 8 = 7
  · rw [outsAt1_C V c t hF hL]
    exact congrArg Prod.snd (sout1_C_eq c _ _ _ _ _ _ _ _ _ _ _ _ _ _ _ _ _ _ _ _ _ _ _)
  · rw [outsAt1_B V c t hF hL]
    exact sout1_B_eq c _ _ _ _ _ _ _ _ _ _ _ _ _ _ _ _ _ _ _ _ _ _ _

theorem out1_last (c : Dev nD) (t : Fin cfg1.N) (hL : t.val % 8 = 7) :
    (outsAt1 V c t.val t.isLt).1 = outO (outsAt1 V c t.val t.isLt).2.2.2 (outsAt1 V c t.val t.isLt).2.2.1 := by
  have hF : ¬t.val % 8 = 0 := by omega
  rw [outsAt1_C V c t hF hL, show atC V c t hF hL _ = _ from sout1_C_eq c _ _ _ _ _ _ _ _ _ _ _ _ _ _ _ _ _ _ _ _ _ _ _]

end

end Cert.KernelIdeal.Gen

end
-- ==== Proof.AttnStep.lean ====
import proofs.«403715_j42039139893702_3_alg».proof.Proof.Launch1Pieces
import proofs.«403715_j42039139893702_3_alg».proof.Proof.SoftmaxMath
import Idealize.ShloMosaic.Lib.Pipeline.Value
import Idealize.ShloMosaic.Lib.ValueIdx
import Idealize.ShloMosaic.Lib.ValueLayout
import Idealize.ShloMosaic.PureOps.Ideal.Laws

open BigOperators

noncomputable section

namespace Cert.KernelIdeal.AttnStep

open Cert.KernelIdeal Cert.KernelIdeal.Gen Idealize.ShloMosaic Idealize.ShloMosaic.ValueIdx Idealize.SL.Sem
open Cert.SoftmaxMath

def qB (qR : Fin 1024 → Fin 64 → ℝ) : Vec Ideal S1x1024x64 .bf16 :=
  fun i => ((qR (i 1) (i 2) : ℝ) : EReal)

def kB (kR : Fin 512 → Fin 64 → ℝ) : Vec Ideal S1x512x64 .bf16 :=
  fun i => ((kR (i 1) (i 2) : ℝ) : EReal)

def colB (mR : Fin 1024 → ℝ) : Vec Ideal S1024x1 .f32 := fun i => ((mR (i 0) : ℝ) : EReal)

def matB (aR : Fin 1024 → Fin 64 → ℝ) : Vec Ideal S1024x64 .f32 :=
  fun i => ((aR (i 0) (i 1) : ℝ) : EReal)

def scoreR (qR : Fin 1024 → Fin 64 → ℝ) (kR : Fin 512 → Fin 64 → ℝ) (n : Fin 1024) (j : Fin 512) : ℝ :=
  ∑ e : Fin 64, qR n e * kR j e

theorem qB_apply (qR : Fin 1024 → Fin 64 → ℝ) (u : Fin 1) (n : Fin 1024) (e : Fin 64) :
    qB qR (ix3 u n e) = ((qR n e : ℝ) : EReal) := rfl
theorem kB_apply (kR : Fin 512 → Fin 64 → ℝ) (u : Fin 1) (j : Fin 512) (e : Fin 64) :
    kB kR (ix3 u j e) = ((kR j e : ℝ) : EReal) := rfl
theorem colB_apply (mR : Fin 1024 → ℝ) (n : Fin 1024) (u : Fin 1) :
    colB mR (ix2 n u) = ((mR n : ℝ) : EReal) := rfl
theorem matB_apply (aR : Fin 1024 → Fin 64 → ℝ) (n : Fin 1024) (d : Fin 64) :
    matB aR (ix2 n d) = ((aR n d : ℝ) : EReal) := rfl

section Layout
variable {α : Type}

theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

theorem lhs_qk_0 (i : S1024x512.Idx) (q : dot_S1024x64_S512x64_S1024x512_1_1_0_0_n_n.contr.Idx) :
    (dot_S1024x64_S512x64_S1024x512_1_1_0_0_n_n.lhsIdx i q 0).val = (i 0).val := by
  unfold DotDims.lhsIdx
  rw [dif_neg (show ¬(0 : Fin S1024x64.rank) ∈ dot_S1024x64_S512x64_S1024x512_1_1_0_0_n_n.lhsBatch by decide), dif_pos (show (0 : Fin S1024x64.rank) ∈ dot_S1024x64_S512x64_S1024x512_1_1_0_0_n_n.lhsNonContracting by decide)]
  rfl
theorem lhs_qk_1 (i : S1024x512.Idx) (q : dot_S1024x64_S512x64_S1024x512_1_1_0_0_n_n.contr.Idx) :
    (dot_S1024x64_S512x64_S1024x512_1_1_0_0_n_n.lhsIdx i q 1).val = (q ⟨0, by decide⟩).val :=
  dot_S1024x64_S512x64_S1024x512_1_1_0_0_n_n.lhsIdx_val_of_single rfl i q
theorem rhs_qk_0 (i : S1024x512.Idx) (q : dot_S1024x64_S512x64_S1024x512_1_1_0_0_n_n.contr.Idx) :
    (dot_S1024x64_S512x64_S1024x512_1_1_0_0_n_n.rhsIdx i q 0).val = (i 1).val := by
  unfold DotDims.rhsIdx
  rw [dif_neg (show ¬(0 : Fin S512x64.rank) ∈ dot_S1024x64_S512x64_S1024x512_1_1_0_0_n_n.rhsBatch by decide), dif_pos (show (0 : Fin S512x64.rank) ∈ dot_S1024x64_S512x64_S1024x512_1_1_0_0_n_n.rhsNonContracting by decide)]
  rfl
theorem rhs_qk_1 (i : S1024x512.Idx) (q : dot_S1024x64_S512x64_S1024x512_1_1_0_0_n_n.contr.Idx) :
    (dot_S1024x64_S512x64_S1024x512_1_1_0_0_n_n.rhsIdx i q 1).val = (q ⟨0, by decide⟩).val :=
  dot_S1024x64_S512x64_S1024x512_1_1_0_0_n_n.rhsIdx_val_of_single rfl i q

theorem pay8_apply (qv : Vec Ideal S1x1024x64 .bf16) (kv : Vec Ideal S1x512x64 .bf16) (n : Fin 1024) (j : Fin 512) :
    k1_pay8 qv kv (ix2 n j) = ∑ e : Fin 64, qv (ix3 (0 : Fin 1) n e) * kv (ix3 (0 : Fin 1) j e) := by
  unfold k1_pay8
  refine (Ideal.matmul_constant_zero_apply dot_S1024x64_S512x64_S1024x512_1_1_0_0_n_n none _ _ (ix2 n j)).trans ?_
  rw [← Equiv.sum_comp (ValueIdx.contrEquiv1 dot_S1024x64_S512x64_S1024x512_1_1_0_0_n_n 64 rfl rfl).symm]
  refine Finset.sum_congr rfl fun e _ => ?_
  have hk := ValueIdx.contrEquiv1_symm_val dot_S1024x64_S512x64_S1024x512_1_1_0_0_n_n 64 rfl rfl e
  have el : dot_S1024x64_S512x64_S1024x512_1_1_0_0_n_n.lhsIdx (ix2 n j) ((ValueIdx.contrEquiv1 dot_S1024x64_S512x64_S1024x512_1_1_0_0_n_n 64 rfl rfl).symm e) = ix2 n e := funext fun a => Fin.ext (by
    match a with
    | ⟨0, _⟩ => exact lhs_qk_0 _ _
    | ⟨1, _⟩ => exact (lhs_qk_1 _ _).trans hk)
  have er : dot_S1024x64_S512x64_S1024x512_1_1_0_0_n_n.rhsIdx (ix2 n j) ((ValueIdx.contrEquiv1 dot_S1024x64_S512x64_S1024x512_1_1_0_0_n_n 64 rfl rfl).symm e) = ix2 j e := funext fun a => Fin.ext (by
    match a with
    | ⟨0, _⟩ => exact rhs_qk_0 _ _
    | ⟨1, _⟩ => exact (rhs_qk_1 _ _).trans hk)
  rw [el, er, shapeCast_1ab_ab_apply, shapeCast_1ab_ab_apply]

theorem pay8_real (qR : Fin 1024 → Fin 64 → ℝ) (kR : Fin 512 → Fin 64 → ℝ) (n : Fin 1024) (j : Fin 512) :
    k1_pay8 (qB qR) (kB kR) (ix2 n j) = ((scoreR qR kR n j : ℝ) : EReal) := by
  rw [pay8_apply, scoreR, coe_sum]
  refine Finset.sum_congr rfl fun e _ => ?_
  rw [qB_apply, kB_apply, EReal.coe_mul]

theorem ofBits_neg_inf : Ideal.ofBits .f32 0xFF800000#32 = (⊥ : EReal) := by
  simp [Ideal.ofBits, Ideal.ieee]

theorem fold_max_coe {ι : Type} (s : Finset ι) (f : ι → EReal) (g : ι → ℝ) (hf : ∀ i, f i = ((g i : ℝ) : EReal))
    (hs : s.Nonempty) : ∃ r : ℝ, s.fold max (⊥ : EReal) f = ((r : ℝ) : EReal) := by
  induction hs using Finset.Nonempty.cons_induction with
  | singleton a => exact ⟨g a, by rw [Finset.fold_singleton, hf, max_bot_right]⟩
  | cons a s ha hs ih =>
    obtain ⟨r, hr⟩ := ih
    exact ⟨max (g a) r, by rw [Finset.fold_cons, hr, hf, max_coe_coe]⟩

theorem lift_row (n : Fin 1024) (k : Fin 512) :
    reduces_S1024x512_S1024.lift (ix1 n) k = ix2 n k := by
  funext a
  match a with
  | ⟨0, _⟩ => exact Fin.ext rfl
  | ⟨1, _⟩ => exact Fin.ext rfl

theorem rowmax_real (X : FVec Ideal S1024x512 .f32) (xR : Fin 1024 → Fin 512 → ℝ)
    (hX : ∀ n j, X (ix2 n j) = ((xR n j : ℝ) : EReal)) (hφ : FKind.Formats .f32)
    (hacc : (0xFF800000#32 : BitVec 32) = FKind.maximumf.neutral .f32 hφ) (n : Fin 1024) :
    ∃ r : ℝ, multiReduction (F := Ideal) .maximumf [1] S1024 X 0xFF800000#32 reduces_S1024x512_S1024 hφ hacc (ix1 n)
      = ((r : ℝ) : EReal) := by
  obtain ⟨r, hr⟩ := fold_max_coe (Finset.univ : Finset (Fin 512)) (X ∘ reduces_S1024x512_S1024.lift (ix1 n)) (xR n)
    (fun k => (congrArg X (lift_row n k)).trans (hX n k)) Finset.univ_nonempty
  refine ⟨r, ?_⟩
  refine (Ideal.multiReduction_maximumf_single X 0xFF800000#32 reduces_S1024x512_S1024 hφ hacc (ix1 n)).trans ?_
  rw [Ideal.ofBits_def, ofBits_neg_inf]
  exact hr

theorem pay9_real (qR : Fin 1024 → Fin 64 → ℝ) (kR : Fin 512 → Fin 64 → ℝ) (mR : Fin 1024 → ℝ) :
    ∃ m' : Fin 1024 → ℝ, k1_pay9 (qB qR) (kB kR) (colB mR) = colB m' := by
  have h := fun n => rowmax_real (k1_pay8 (qB qR) (kB kR)) (scoreR qR kR) (pay8_real qR kR) (.inl rfl) rfl n
  choose r hr using h
  refine ⟨fun n => max (mR n) (r n), ?_⟩
  funext i
  obtain ⟨n, u, rfl⟩ : ∃ (n : Fin 1024) (u : Fin 1), i = ix2 n u := ⟨i 0, i 1, eq_ix2 i⟩
  unfold k1_pay9
  refine (maximumf_apply _ _ (ix2 n u)).trans ?_
  rw [colB_apply, colB_apply]
  refine (congrArg (max ((mR n : ℝ) : EReal)) ((shapeCast_a_a1_apply _ _ n u).trans (hr n))).trans ?_
  exact max_coe_coe _ _

theorem pay2_eq (v13 : FVec Ideal S1024x1 .f32) : k1_pay2 v13 = shapeCast S1024x1 v13 shapeCasts_S1024x1_S1024x1 := rfl
theorem pay4_eq : (k1_pay4 (F := Ideal))
    = shapeCast S1024x1 (broadcast S1024x1 (Scalar.ofBits (F := Ideal) .f32 0xF149F2CA#32)) shapeCasts_S1024x1_S1024x1 := rfl
theorem pay5_eq : (k1_pay5 (F := Ideal))
    = shapeCast S1024x1 (broadcast S1024x1 (Scalar.ofBits (F := Ideal) .f32 0x00000000#32)) shapeCasts_S1024x1_S1024x1 := rfl
theorem pay6_eq : (k1_pay6 (F := Ideal))
    = shapeCast S1024x64 (broadcast S1024x64 (Scalar.ofBits (F := Ideal) .f32 0x00000000#32)) shapeCasts_S1024x64_S1024x64 := rfl
theorem pay10_eq (v3 : Vec Ideal S1x1024x64 .bf16) (v5 : Vec Ideal S1x512x64 .bf16) (v10 v14 : Vec Ideal S1024x1 .f32) :
    k1_pay10 v3 v5 v10 v14 = exp (subf v14 (k1_pay9 v3 v5 v10)) := rfl
theorem pay11_eq (v3 : Vec Ideal S1x1024x64 .bf16) (v5 : Vec Ideal S1x512x64 .bf16) (v10 : Vec Ideal S1024x1 .f32) :
    k1_pay11 v3 v5 v10
      = exp (subf (k1_pay8 v3 v5) (broadcastTo S1024x512 (k1_pay9 v3 v5 v10) broadcasts_S1024x1_S1024x512)) := rfl
theorem pay12_eq (v3 : Vec Ideal S1x1024x64 .bf16) (v5 : Vec Ideal S1x512x64 .bf16) (v10 v14 v20 : Vec Ideal S1024x1 .f32) :
    k1_pay12 v3 v5 v10 v14 v20
      = shapeCast S1024x1 (addf (mulf (k1_pay10 v3 v5 v10 v14) v20)
          (shapeCast S1024x1 (multiReduction (F := Ideal) .add [1] S1024 (k1_pay11 v3 v5 v10) 0x00000000#32
            reduces_S1024x512_S1024 (.inl rfl) rfl) shapeCasts_S1024_S1024x1)) shapeCasts_S1024x1_S1024x1 := rfl
theorem pay13_eq (v3 : Vec Ideal S1x1024x64 .bf16) (v5 : Vec Ideal S1x512x64 .bf16) (v10 : Vec Ideal S1024x1 .f32) :
    k1_pay13 v3 v5 v10 = truncf .bf16 (k1_pay11 v3 v5 v10) bitsLt_bf16_f32 := rfl
theorem pay14_eq (v3 : Vec Ideal S1x1024x64 .bf16) (v5 : Vec Ideal S1x512x64 .bf16) (v10 v14 : Vec Ideal S1024x1 .f32) :
    k1_pay14 v3 v5 v10 v14 = broadcastTo S1024x64 (k1_pay10 v3 v5 v10 v14) broadcasts_S1024x1_S1024x64 := rfl
theorem pay1_eq (v8 : FVec Ideal S512x64 .bf16) (v28 : FVec Ideal S1024x512 .bf16) (v29 : Vec Ideal S1024x64 .f32)
    (v30 : FVec Ideal S1024x64 .f32) :
    k1_pay1 v8 v28 v29 v30
      = shapeCast S1024x64 (addf (mulf v30 v29)
          (matmul dot_S1024x512_S512x64_S1024x64_1_0_0_1_n_n none v28 v8 (constant (F := Ideal) S1024x64 .f32 0x00000000#32)))
          shapeCasts_S1024x64_S1024x64 := rfl
theorem pay3_eq (v43 : Vec Ideal S1024x64 .f32) (v44 : Vec Ideal S1024x1 .f32) :
    k1_pay3 v43 v44
      = shapeCast S1x1024x64 (truncf .bf16 (divf v43 (broadcastTo S1024x64 v44 broadcasts_S1024x1_S1024x64)) bitsLt_bf16_f32)
          shapeCasts_S1024x64_S1x1024x64 := rfl

theorem exp_sub_coe (x y : ℝ) :
    Ideal.exp (((x : ℝ) : EReal) - ((y : ℝ) : EReal)) = ((Real.exp (x - y) : ℝ) : EReal) := by
  rw [← EReal.coe_sub, Ideal.exp_coe]

theorem rowsum_apply (X : FVec Ideal S1024x512 .f32) (hφ : FKind.Formats .f32)
    (hacc : (0x00000000#32 : BitVec 32) = FKind.add.neutral .f32 hφ) (n : Fin 1024) :
    multiReduction (F := Ideal) .add [1] S1024 X 0x00000000#32 reduces_S1024x512_S1024 hφ hacc (ix1 n)
      = ∑ j : Fin 512, X (ix2 n j) := by
  refine (Ideal.multiReduction_add_single X _ reduces_S1024x512_S1024 hφ hacc (ix1 n)).trans ?_
  exact Finset.sum_congr rfl fun k _ => congrArg X (lift_row n k)

section Step
variable (qR : Fin 1024 → Fin 64 → ℝ) (kR vR : Fin 512 → Fin 64 → ℝ) (mR lR : Fin 1024 → ℝ)
  (aR : Fin 1024 → Fin 64 → ℝ) (m' : Fin 1024 → ℝ)
  (hm : k1_pay9 (qB qR) (kB kR) (colB mR) = colB m')
include hm

theorem pay10_real : k1_pay10 (qB qR) (kB kR) (colB mR) (colB mR) = colB (fun n => Real.exp (mR n - m' n)) := by
  funext i
  obtain ⟨n, u, rfl⟩ : ∃ (n : Fin 1024) (u : Fin 1), i = ix2 n u := ⟨i 0, i 1, eq_ix2 i⟩
  rw [pay10_eq, hm]
  show Ideal.exp (colB mR (ix2 n u) - colB m' (ix2 n u)) = _
  rw [colB_apply, colB_apply, colB_apply, exp_sub_coe]

theorem pay11_real (n : Fin 1024) (j : Fin 512) :
    k1_pay11 (qB qR) (kB kR) (colB mR) (ix2 n j) = ((Real.exp (scoreR qR kR n j - m' n) : ℝ) : EReal) := by
  rw [pay11_eq, hm]
  show Ideal.exp (k1_pay8 (qB qR) (kB kR) (ix2 n j)
    - broadcastTo S1024x512 (colB m') broadcasts_S1024x1_S1024x512 (ix2 n j)) = _
  rw [pay8_real, broadcastTo_a1_ab_apply, colB_apply, exp_sub_coe]

theorem stepL_real :
    stepL (qB qR) (kB kR) (colB mR) (colB lR)
      = colB (fun n => Real.exp (mR n - m' n) * lR n + ∑ j : Fin 512, Real.exp (scoreR qR kR n j - m' n)) := by
  funext i
  obtain ⟨n, u, rfl⟩ : ∃ (n : Fin 1024) (u : Fin 1), i = ix2 n u := ⟨i 0, i 1, eq_ix2 i⟩
  have hsum : multiReduction (F := Ideal) .add [1] S1024 (k1_pay11 (qB qR) (kB kR) (colB mR)) 0x00000000#32
      reduces_S1024x512_S1024 (.inl rfl) rfl (ix1 n)
        = ((∑ j : Fin 512, Real.exp (scoreR qR kR n j - m' n) : ℝ) : EReal) := by
    refine (rowsum_apply _ (.inl rfl) rfl n).trans ?_
    rw [coe_sum]
    exact Finset.sum_congr rfl fun j _ => pay11_real qR kR mR m' hm n j
  unfold stepL
  rw [pay12_eq, shapeCast_self, pay10_real qR kR mR m' hm]
  refine (addf_apply _ _ (ix2 n u)).trans ?_
  rw [mulf_apply, colB_apply, colB_apply, colB_apply, shapeCast_a_a1_apply, hsum, EReal.coe_add, EReal.coe_mul]

end Step

theorem lhs_pv_0 (i : S1024x64.Idx) (q : dot_S1024x512_S512x64_S1024x64_1_0_0_1_n_n.contr.Idx) :
    (dot_S1024x512_S512x64_S1024x64_1_0_0_1_n_n.lhsIdx i q 0).val = (i 0).val := by
  unfold DotDims.lhsIdx
  rw [dif_neg (show ¬(0 : Fin S1024x512.rank) ∈ dot_S1024x512_S512x64_S1024x64_1_0_0_1_n_n.lhsBatch by decide), dif_pos (show (0 : Fin S1024x512.rank) ∈ dot_S1024x512_S512x64_S1024x64_1_0_0_1_n_n.lhsNonContracting by decide)]
  rfl
theorem lhs_pv_1 (i : S1024x64.Idx) (q : dot_S1024x512_S512x64_S1024x64_1_0_0_1_n_n.contr.Idx) :
    (dot_S1024x512_S512x64_S1024x64_1_0_0_1_n_n.lhsIdx i q 1).val = (q ⟨0, by decide⟩).val :=
  dot_S1024x512_S512x64_S1024x64_1_0_0_1_n_n.lhsIdx_val_of_single rfl i q
theorem rhs_pv_0 (i : S1024x64.Idx) (q : dot_S1024x512_S512x64_S1024x64_1_0_0_1_n_n.contr.Idx) :
    (dot_S1024x512_S512x64_S1024x64_1_0_0_1_n_n.rhsIdx i q 0).val = (q ⟨0, by decide⟩).val :=
  dot_S1024x512_S512x64_S1024x64_1_0_0_1_n_n.rhsIdx_val_of_single rfl i q
theorem rhs_pv_1 (i : S1024x64.Idx) (q : dot_S1024x512_S512x64_S1024x64_1_0_0_1_n_n.contr.Idx) :
    (dot_S1024x512_S512x64_S1024x64_1_0_0_1_n_n.rhsIdx i q 1).val = (i 1).val := by
  unfold DotDims.rhsIdx
  rw [dif_neg (show ¬(1 : Fin S512x64.rank) ∈ dot_S1024x512_S512x64_S1024x64_1_0_0_1_n_n.rhsBatch by decide), dif_pos (show (1 : Fin S512x64.rank) ∈ dot_S1024x512_S512x64_S1024x64_1_0_0_1_n_n.rhsNonContracting by decide)]
  rfl

theorem matmul_pv_apply (p : FVec Ideal S1024x512 .bf16) (v : FVec Ideal S512x64 .bf16) (n : Fin 1024) (d : Fin 64) :
    matmul dot_S1024x512_S512x64_S1024x64_1_0_0_1_n_n none p v (constant (F := Ideal) S1024x64 .f32 0x00000000#32) (ix2 n d)
      = ∑ j : Fin 512, p (ix2 n j) * v (ix2 j d) := by
  refine (Ideal.matmul_constant_zero_apply dot_S1024x512_S512x64_S1024x64_1_0_0_1_n_n none _ _ (ix2 n d)).trans ?_
  rw [← Equiv.sum_comp (ValueIdx.contrEquiv1 dot_S1024x512_S512x64_S1024x64_1_0_0_1_n_n 512 rfl rfl).symm]
  refine Finset.sum_congr rfl fun j _ => ?_
  have hk := ValueIdx.contrEquiv1_symm_val dot_S1024x512_S512x64_S1024x64_1_0_0_1_n_n 512 rfl rfl j
  have el : dot_S1024x512_S512x64_S1024x64_1_0_0_1_n_n.lhsIdx (ix2 n d) ((ValueIdx.contrEquiv1 dot_S1024x512_S512x64_S1024x64_1_0_0_1_n_n 512 rfl rfl).symm j) = ix2 n j := funext fun a => Fin.ext (by
    match a with
    | ⟨0, _⟩ => exact lhs_pv_0 _ _
    | ⟨1, _⟩ => exact (lhs_pv_1 _ _).trans hk)
  have er : dot_S1024x512_S512x64_S1024x64_1_0_0_1_n_n.rhsIdx (ix2 n d) ((ValueIdx.contrEquiv1 dot_S1024x512_S512x64_S1024x64_1_0_0_1_n_n 512 rfl rfl).symm j) = ix2 j d := funext fun a => Fin.ext (by
    match a with
    | ⟨0, _⟩ => exact (rhs_pv_0 _ _).trans hk
    | ⟨1, _⟩ => exact rhs_pv_1 _ _)
  rw [el, er]

section StepA
variable (qR : Fin 1024 → Fin 64 → ℝ) (kR vR : Fin 512 → Fin 64 → ℝ) (mR : Fin 1024 → ℝ)
  (aR : Fin 1024 → Fin 64 → ℝ) (m' : Fin 1024 → ℝ)
  (hm : k1_pay9 (qB qR) (kB kR) (colB mR) = colB m')
include hm

theorem stepA_real :
    stepA (qB qR) (kB kR) (kB vR) (colB mR) (matB aR)
      = matB (fun n d => Real.exp (mR n - m' n) * aR n d
          + ∑ j : Fin 512, Real.exp (scoreR qR kR n j - m' n) * vR j d) := by
  funext i
  obtain ⟨n, d, rfl⟩ : ∃ (n : Fin 1024) (d : Fin 64), i = ix2 n d := ⟨i 0, i 1, eq_ix2 i⟩
  have hmm : matmul dot_S1024x512_S512x64_S1024x64_1_0_0_1_n_n none (k1_pay13 (qB qR) (kB kR) (colB mR)) (k1_pay7 (kB vR))
      (constant (F := Ideal) S1024x64 .f32 0x00000000#32) (ix2 n d)
        = ((∑ j : Fin 512, Real.exp (scoreR qR kR n j - m' n) * vR j d : ℝ) : EReal) := by
    refine (matmul_pv_apply _ _ n d).trans ?_
    rw [coe_sum]
    refine Finset.sum_congr rfl fun j _ => ?_
    rw [pay13_eq, truncf_apply, pay11_real qR kR mR m' hm n j, EReal.coe_mul]
    refine congrArg (((Real.exp (scoreR qR kR n j - m' n) : ℝ) : EReal) * ·) ?_
    exact (shapeCast_1ab_ab_apply (kB vR) shapeCasts_S1x512x64_S512x64 j d).trans (kB_apply vR 0 j d)
  unfold stepA
  rw [pay1_eq, shapeCast_self, pay14_eq, pay10_real qR kR mR m' hm]
  refine (addf_apply _ _ (ix2 n d)).trans ?_
  rw [hmm, mulf_apply, broadcastTo_a1_ab_apply, colB_apply, matB_apply, matB_apply, EReal.coe_add, EReal.coe_mul]

end StepA

theorem step_real (qR : Fin 1024 → Fin 64 → ℝ) (kR vR : Fin 512 → Fin 64 → ℝ) (mR lR : Fin 1024 → ℝ)
    (aR : Fin 1024 → Fin 64 → ℝ) :
    ∃ m' : Fin 1024 → ℝ,
      stepM (qB qR) (kB kR) (colB mR) = colB m'
      ∧ stepL (qB qR) (kB kR) (colB mR) (colB lR)
          = colB (fun n => Real.exp (mR n - m' n) * lR n + ∑ j : Fin 512, Real.exp (scoreR qR kR n j - m' n))
      ∧ stepA (qB qR) (kB kR) (kB vR) (colB mR) (matB aR)
          = matB (fun n d => Real.exp (mR n - m' n) * aR n d
              + ∑ j : Fin 512, Real.exp (scoreR qR kR n j - m' n) * vR j d) := by
  obtain ⟨m', hm⟩ := pay9_real qR kR mR
  refine ⟨m', ?_, stepL_real qR kR mR lR m' hm, stepA_real qR kR vR mR aR m' hm⟩
  unfold stepM
  rw [pay2_eq, shapeCast_self, hm]

theorem sentinel_real : ∃ c0 : ℝ, Ideal.ofBits .f32 0xF149F2CA#32 = ((c0 : ℝ) : EReal) := by
  simp only [Ideal.ofBits, Ideal.ieee]
  rw [if_neg (by decide), if_neg (by decide)]
  exact ⟨_, rfl⟩

theorem init_real :
    ∃ c0 : ℝ, (initM : Vec Ideal S1024x1 .f32) = colB (fun _ => c0)
      ∧ (initL : Vec Ideal S1024x1 .f32) = colB (fun _ => 0)
      ∧ (initA : Vec Ideal S1024x64 .f32) = matB (fun _ _ => 0) := by
  obtain ⟨c0, hc⟩ := sentinel_real
  refine ⟨c0, ?_, ?_, ?_⟩
  · unfold initM
    rw [pay4_eq, shapeCast_self]
    funext i
    exact hc
  · unfold initL
    rw [pay5_eq, shapeCast_self]
    funext i
    exact Ideal.ofBits_zero_f32.trans EReal.coe_zero.symm
  · unfold initA
    rw [pay6_eq, shapeCast_self]
    funext i
    exact Ideal.ofBits_zero_f32.trans EReal.coe_zero.symm

theorem out_real (aR : Fin 1024 → Fin 64 → ℝ) (lR : Fin 1024 → ℝ) (hl : ∀ n, lR n ≠ 0) (n : Fin 1024) (d : Fin 64) :
    outO (matB aR) (colB lR) (ix3 (0 : Fin 1) n d) = (((aR n d / lR n : ℝ)) : EReal) := by
  unfold outO
  rw [pay3_eq, shapeCast_ab_1ab_apply, truncf_apply, divf_apply, broadcastTo_a1_ab_apply, matB_apply, colB_apply]
  exact div_coe_coe _ _ (hl n)

end Cert.KernelIdeal.AttnStep

end
-- ==== Proof.Value1.lean ====
import proofs.«403715_j42039139893702_3_alg».proof.Proof.Launch1Pieces
import proofs.«403715_j42039139893702_3_alg».proof.Proof.AttnStep
import proofs.«403715_j42039139893702_3_alg».proof.Proof.SoftmaxMath
import Idealize.ShloMosaic.Lib.Pipeline.Value
import Idealize.ShloMosaic.Lib.ValueIdx
import Idealize.ShloMosaic.PureOps.Ideal.Laws

noncomputable section

namespace Cert.KernelIdeal.Val1

open Cert.KernelIdeal Cert.KernelIdeal.Gen Cert.KernelIdeal.AttnStep Idealize.ShloMosaic Idealize.ShloMosaic.TcCoe Idealize.SL.Sem
open Idealize.ShloMosaic.ValueIdx
open Idealize.ShloMosaic.Pipeline (Dat)
open scoped BigOperators

theorem idx_facts1 : ∀ t : Fin cfg1.N,
    (win1_0.index t (0 : Fin 3) = t.val / 32 ∧ win1_0.index t (1 : Fin 3) = t.val / 8 % 4 ∧ win1_0.index t (2 : Fin 3) = 0)
    ∧ (win1_1.index t (0 : Fin 3) = t.val / 32 ∧ win1_1.index t (1 : Fin 3) = t.val % 8 ∧ win1_1.index t (2 : Fin 3) = 0)
    ∧ (win1_2.index t (0 : Fin 3) = t.val / 32 ∧ win1_2.index t (1 : Fin 3) = t.val % 8 ∧ win1_2.index t (2 : Fin 3) = 0)
    ∧ (win1_3.index t (0 : Fin 3) = t.val / 32 ∧ win1_3.index t (1 : Fin 3) = t.val / 8 % 4 ∧ win1_3.index t (2 : Fin 3) = 0) :=
  (by decide +kernel : ∀ t : Fin grid1.N, _)

def Qb (qR : Fin 16 → Fin 4096 → Fin 64 → ℝ) (bh : Fin 16) (qi : ℕ) : Fin 1024 → Fin 64 → ℝ :=
  fun p e => qR bh ⟨(1024 * qi + p.val) % 4096, Nat.mod_lt _ (by norm_num)⟩ e

def Kb (kR : Fin 16 → Fin 4096 → Fin 64 → ℝ) (bh : Fin 16) (j : ℕ) : Fin 512 → Fin 64 → ℝ :=
  fun p e => kR bh ⟨(512 * j + p.val) % 4096, Nat.mod_lt _ (by norm_num)⟩ e

theorem qB_at (Q : Fin 1024 → Fin 64 → ℝ) (b : Fin 1) (p : Fin 1024) (e : Fin 64) : qB Q (ix3 b p e) = ((Q p e : ℝ) : EReal) := rfl
theorem kB_at (K : Fin 512 → Fin 64 → ℝ) (b : Fin 1) (p : Fin 512) (e : Fin 64) : kB K (ix3 b p e) = ((K p e : ℝ) : EReal) := rfl

section
variable (V : (c : Dev nD) → (b : Ref sig .tc) → Buf (Elt Ideal) ((c : Thread nD τ).loc b))

abbrev qblk (c : Dev nD) (t : Fin cfg1.N) : Vec Ideal S1x1024x64 .bf16 := iblk1 V c 0 t
abbrev kblk (c : Dev nD) (t : Fin cfg1.N) : Vec Ideal S1x512x64 .bf16 := iblk1 V c 1 t
abbrev vblk (c : Dev nD) (t : Fin cfg1.N) : Vec Ideal S1x512x64 .bf16 := iblk1 V c 2 t

theorem qblk_eq (c : Dev nD) (qR : Fin 16 → Fin 4096 → Fin 64 → ℝ)
    (hq : ∀ (bh : Fin 16) (n : Fin 4096) (e : Fin 64), V c main_v14 (ix3 bh n e) = ((qR bh n e : ℝ) : EReal))
    (t : Fin cfg1.N) (bh : Fin 16) (hbh : bh.val = t.val / 32) :
    qblk V c t = qB (Qb qR bh (t.val / 8 % 4)) := by
  obtain ⟨⟨e0, e1, e2⟩, -, -, -⟩ := idx_facts1 t
  funext i
  obtain ⟨b, p, e, rfl⟩ : ∃ (b : Fin 1) (p : Fin 1024) (e : Fin 64), i = ix3 b p e := ⟨i 0, i 1, i 2, eq_ix3 (n0 := 1) (n1 := 1024) (n2 := 64) i⟩
  rw [qB_at]
  show V c main_v14 (((cfg1.win 0).blk t).view.emb (ix3 b p e)) = _
  have ht : t.val < 512 := Nat.lt_of_lt_of_eq t.isLt N_1
  have hp : p.val < 1024 := p.isLt
  have hb : b.val = 0 := by omega
  have h : ((cfg1.win 0).blk t).view.emb (ix3 b p e) = ix3 bh ⟨(1024 * (t.val / 8 % 4) + p.val) % 4096, Nat.mod_lt _ (by norm_num)⟩ e := by
    funext a; apply Fin.ext
    match a with
    | ⟨0, _⟩ => show win1_0.index t (0 : Fin 3) * 1 + 1 * b.val = bh.val; rw [e0, hbh, hb]; omega
    | ⟨1, _⟩ => show win1_0.index t (1 : Fin 3) * 1024 + 1 * p.val = (1024 * (t.val / 8 % 4) + p.val) % 4096; rw [e1]; omega
    | ⟨2, _⟩ => show win1_0.index t (2 : Fin 3) * 64 + 1 * e.val = e.val; rw [e2]; omega
  rw [h, hq]; rfl

theorem kblk_eq (c : Dev nD) (kR : Fin 16 → Fin 4096 → Fin 64 → ℝ)
    (hk : ∀ (bh : Fin 16) (n : Fin 4096) (e : Fin 64), V c main_v17 (ix3 bh n e) = ((kR bh n e : ℝ) : EReal))
    (t : Fin cfg1.N) (bh : Fin 16) (hbh : bh.val = t.val / 32) :
    kblk V c t = kB (Kb kR bh (t.val % 8)) := by
  obtain ⟨-, ⟨e0, e1, e2⟩, -, -⟩ := idx_facts1 t
  funext i
  obtain ⟨b, p, e, rfl⟩ : ∃ (b : Fin 1) (p : Fin 512) (e : Fin 64), i = ix3 b p e := ⟨i 0, i 1, i 2, eq_ix3 (n0 := 1) (n1 := 512) (n2 := 64) i⟩
  rw [kB_at]
  show V c main_v17 (((cfg1.win 1).blk t).view.emb (ix3 b p e)) = _
  have ht : t.val < 512 := Nat.lt_of_lt_of_eq t.isLt N_1
  have hp : p.val < 512 := p.isLt
  have hb : b.val = 0 := by omega
  have h : ((cfg1.win 1).blk t).view.emb (ix3 b p e) = ix3 bh ⟨(512 * (t.val % 8) + p.val) % 4096, Nat.mod_lt _ (by norm_num)⟩ e := by
    funext a; apply Fin.ext
    match a with
    | ⟨0, _⟩ => show win1_1.index t (0 : Fin 3) * 1 + 1 * b.val = bh.val; rw [e0, hbh, hb]; omega
    | ⟨1, _⟩ => show win1_1.index t (1 : Fin 3) * 512 + 1 * p.val = (512 * (t.val % 8) + p.val) % 4096; rw [e1]; omega
    | ⟨2, _⟩ => show win1_1.index t (2 : Fin 3) * 64 + 1 * e.val = e.val; rw [e2]; omega
  rw [h, hk]; rfl

theorem vblk_eq (c : Dev nD) (vR : Fin 16 → Fin 4096 → Fin 64 → ℝ)
    (hv : ∀ (bh : Fin 16) (n : Fin 4096) (e : Fin 64), V c main_v20 (ix3 bh n e) = ((vR bh n e : ℝ) : EReal))
    (t : Fin cfg1.N) (bh : Fin 16) (hbh : bh.val = t.val / 32) :
    vblk V c t = kB (Kb vR bh (t.val % 8)) := by
  obtain ⟨-, -, ⟨e0, e1, e2⟩, -⟩ := idx_facts1 t
  funext i
  obtain ⟨b, p, e, rfl⟩ : ∃ (b : Fin 1) (p : Fin 512) (e : Fin 64), i = ix3 b p e := ⟨i 0, i 1, i 2, eq_ix3 (n0 := 1) (n1 := 512) (n2 := 64) i⟩
  rw [kB_at]
  show V c main_v20 (((cfg1.win 2).blk t).view.emb (ix3 b p e)) = _
  have ht : t.val < 512 := Nat.lt_of_lt_of_eq t.isLt N_1
  have hp : p.val < 512 := p.isLt
  have hb : b.val = 0 := by omega
  have h : ((cfg1.win 2).blk t).view.emb (ix3 b p e) = ix3 bh ⟨(512 * (t.val % 8) + p.val) % 4096, Nat.mod_lt _ (by norm_num)⟩ e := by
    funext a; apply Fin.ext
    match a with
    | ⟨0, _⟩ => show win1_2.index t (0 : Fin 3) * 1 + 1 * b.val = bh.val; rw [e0, hbh, hb]; omega
    | ⟨1, _⟩ => show win1_2.index t (1 : Fin 3) * 512 + 1 * p.val = (512 * (t.val % 8) + p.val) % 4096; rw [e1]; omega
    | ⟨2, _⟩ => show win1_2.index t (2 : Fin 3) * 64 + 1 * e.val = e.val; rw [e2]; omega
  rw [h, hv]; rfl

end

abbrev RSt : Type := (Fin 1024 → ℝ) × (Fin 1024 → ℝ) × (Fin 1024 → Fin 64 → ℝ)

def rstep (Q : Fin 1024 → Fin 64 → ℝ) (K W : Fin 512 → Fin 64 → ℝ) (s : RSt) : RSt :=
  (Classical.choose (step_real Q K W s.1 s.2.1 s.2.2),
   fun n => Real.exp (s.1 n - Classical.choose (step_real Q K W s.1 s.2.1 s.2.2) n) * s.2.1 n
      + ∑ j : Fin 512, Real.exp (scoreR Q K n j - Classical.choose (step_real Q K W s.1 s.2.1 s.2.2) n),
   fun n d => Real.exp (s.1 n - Classical.choose (step_real Q K W s.1 s.2.1 s.2.2) n) * s.2.2 n d
      + ∑ j : Fin 512, Real.exp (scoreR Q K n j - Classical.choose (step_real Q K W s.1 s.2.1 s.2.2) n) * W j d)

theorem rstep_spec (Q : Fin 1024 → Fin 64 → ℝ) (K W : Fin 512 → Fin 64 → ℝ) (s : RSt) :
    stepM (qB Q) (kB K) (colB s.1) = colB (rstep Q K W s).1
    ∧ stepL (qB Q) (kB K) (colB s.1) (colB s.2.1) = colB (rstep Q K W s).2.1
    ∧ stepA (qB Q) (kB K) (kB W) (colB s.1) (matB s.2.2) = matB (rstep Q K W s).2.2 :=
  Classical.choose_spec (step_real Q K W s.1 s.2.1 s.2.2)

def rinit : RSt := (fun _ => Classical.choose init_real, fun _ => 0, fun _ _ => 0)

theorem rinit_spec : (initM : Vec Ideal S1024x1 .f32) = colB rinit.1 ∧ (initL : Vec Ideal S1024x1 .f32) = colB rinit.2.1
    ∧ (initA : Vec Ideal S1024x64 .f32) = matB rinit.2.2 :=
  Classical.choose_spec init_real

def rst (Q : Fin 1024 → Fin 64 → ℝ) (K W : ℕ → Fin 512 → Fin 64 → ℝ) : ℕ → RSt
  | 0 => rinit
  | j + 1 => rstep Q (K j) (W j) (rst Q K W j)

theorem rst_succ (Q : Fin 1024 → Fin 64 → ℝ) (K W : ℕ → Fin 512 → Fin 64 → ℝ) (j : ℕ) :
    rst Q K W (j + 1) = rstep Q (K j) (W j) (rst Q K W j) := rfl

theorem ratio_eq (qR kR vR : Fin 16 → Fin 4096 → Fin 64 → ℝ) (bh : Fin 16) (qi : ℕ) (n : Fin 1024) (d : Fin 64)
    (r : Fin 4096) (hr : r.val = (1024 * qi + n.val) % 4096) :
    (rst (Qb qR bh qi) (Kb kR bh) (Kb vR bh) 8).2.1 n ≠ 0
    ∧ (rst (Qb qR bh qi) (Kb kR bh) (Kb vR bh) 8).2.2 n d / (rst (Qb qR bh qi) (Kb kR bh) (Kb vR bh) 8).2.1 n
      = (∑ m : Fin 4096, Real.exp (∑ e : Fin 64, qR bh r e * kR bh m e) * vR bh m d)
        / (∑ m : Fin 4096, Real.exp (∑ e : Fin 64, qR bh r e * kR bh m e)) := by
  obtain rfl : r = ⟨(1024 * qi + n.val) % 4096, Nat.mod_lt _ (by norm_num)⟩ := Fin.ext hr
  generalize hst : rst (Qb qR bh qi) (Kb kR bh) (Kb vR bh) = st
  have hL0 : (st 0).2.1 n = 0 := by rw [← hst]; rfl
  have hA0 : (st 0).2.2 n d = 0 := by rw [← hst]; rfl
  have hL : ∀ j, (st (j + 1)).2.1 n = Real.exp ((st j).1 n - (st (j + 1)).1 n) * (st j).2.1 n
      + ∑ p : Fin 512, Real.exp (scoreR (Qb qR bh qi) (Kb kR bh j) n p - (st (j + 1)).1 n) := fun j => by rw [← hst]; rfl
  have hA : ∀ j, (st (j + 1)).2.2 n d = Real.exp ((st j).1 n - (st (j + 1)).1 n) * (st j).2.2 n d
      + ∑ p : Fin 512, Real.exp (scoreR (Qb qR bh qi) (Kb kR bh j) n p - (st (j + 1)).1 n) * Kb vR bh j p d := fun j => by rw [← hst]; rfl
  constructor
  · rw [(Cert.SoftmaxMath.online_sums (fun j p => scoreR (Qb qR bh qi) (Kb kR bh j) n p) (fun j p => Kb vR bh j p d)
      (fun j => (st j).1 n) (fun j => (st j).2.1 n) (fun j => (st j).2.2 n d) hL0 hA0 hL hA 8).1]
    exact (Finset.sum_pos (fun j _ => Cert.SoftmaxMath.sum_exp_pos _) ⟨0, by simp⟩).ne'
  · rw [Cert.SoftmaxMath.online_ratio (fun j p => scoreR (Qb qR bh qi) (Kb kR bh j) n p) (fun j p => Kb vR bh j p d)
      (fun j => (st j).1 n) (fun j => (st j).2.1 n) (fun j => (st j).2.2 n d) hL0 hA0 hL hA 8,
      Cert.SoftmaxMath.sum_blocks (fun m => Real.exp (∑ e : Fin 64, qR bh ⟨(1024 * qi + n.val) % 4096, Nat.mod_lt _ (by norm_num)⟩ e * kR bh m e) * vR bh m d),
      Cert.SoftmaxMath.sum_blocks (fun m => Real.exp (∑ e : Fin 64, qR bh ⟨(1024 * qi + n.val) % 4096, Nat.mod_lt _ (by norm_num)⟩ e * kR bh m e))]
    rfl

section
variable (V : (c : Dev nD) → (b : Ref sig .tc) → Buf (Elt Ideal) ((c : Thread nD τ).loc b))

theorem state_eq (c : Dev nD) (qR kR vR : Fin 16 → Fin 4096 → Fin 64 → ℝ)
    (hq : ∀ (bh : Fin 16) (n : Fin 4096) (e : Fin 64), V c main_v14 (ix3 bh n e) = ((qR bh n e : ℝ) : EReal))
    (hk : ∀ (bh : Fin 16) (n : Fin 4096) (e : Fin 64), V c main_v17 (ix3 bh n e) = ((kR bh n e : ℝ) : EReal))
    (hv : ∀ (bh : Fin 16) (n : Fin 4096) (e : Fin 64), V c main_v20 (ix3 bh n e) = ((vR bh n e : ℝ) : EReal)) :
    ∀ (n : ℕ) (hn : n < cfg1.N) (bh : Fin 16), bh.val = n / 32 →
      (outsAt1 V c n hn).2
        = (colB (rst (Qb qR bh (n / 8 % 4)) (Kb kR bh) (Kb vR bh) (n % 8 + 1)).1,
           colB (rst (Qb qR bh (n / 8 % 4)) (Kb kR bh) (Kb vR bh) (n % 8 + 1)).2.1,
           matB (rst (Qb qR bh (n / 8 % 4)) (Kb kR bh) (Kb vR bh) (n % 8 + 1)).2.2) := by
  intro n
  induction n using Nat.strong_induction_on with
  | _ n ih =>
    intro hn bh hbh
    have eq : (iblk1 V c 0 ⟨n, hn⟩ : Vec Ideal S1x1024x64 .bf16) = qB (Qb qR bh (n / 8 % 4)) := qblk_eq V c qR hq ⟨n, hn⟩ bh hbh
    have ek : (iblk1 V c 1 ⟨n, hn⟩ : Vec Ideal S1x512x64 .bf16) = kB (Kb kR bh (n % 8)) := kblk_eq V c kR hk ⟨n, hn⟩ bh hbh
    have ev : (iblk1 V c 2 ⟨n, hn⟩ : Vec Ideal S1x512x64 .bf16) = kB (Kb vR bh (n % 8)) := vblk_eq V c vR hv ⟨n, hn⟩ bh hbh
    by_cases hF : n % 8 = 0
    · refine (st1_first V c ⟨n, hn⟩ hF).trans ?_
      rw [eq, ek, ev]
      obtain ⟨i1, i2, i3⟩ := rinit_spec
      rw [i1, i2, i3]
      obtain ⟨s1, s2, s3⟩ := rstep_spec (Qb qR bh (n / 8 % 4)) (Kb kR bh (n % 8)) (Kb vR bh (n % 8)) rinit
      rw [s1, s2, s3, rst_succ, hF]
      rfl
    · refine (st1_next V c ⟨n, hn⟩ hF).trans ?_
      have hp := ih (n - 1) (by omega) (prevLt ⟨n, hn⟩) bh (by omega)
      have e1 : (n - 1) / 8 % 4 = n / 8 % 4 := by omega
      have e2 : (n - 1) % 8 + 1 = n % 8 := by omega
      rw [e1, e2] at hp
      rw [eq, ek, ev]
      show (stepM _ _ (outsAt1 V c (n - 1) (prevLt ⟨n, hn⟩)).2.1, stepL _ _ (outsAt1 V c (n - 1) (prevLt ⟨n, hn⟩)).2.1 (outsAt1 V c (n - 1) (prevLt ⟨n, hn⟩)).2.2.1, stepA _ _ _ (outsAt1 V c (n - 1) (prevLt ⟨n, hn⟩)).2.1 (outsAt1 V c (n - 1) (prevLt ⟨n, hn⟩)).2.2.2) = _
      rw [hp]
      obtain ⟨s1, s2, s3⟩ := rstep_spec (Qb qR bh (n / 8 % 4)) (Kb kR bh (n % 8)) (Kb vR bh (n % 8)) (rst (Qb qR bh (n / 8 % 4)) (Kb kR bh) (Kb vR bh) (n % 8))
      rw [rst_succ]
      exact Prod.ext s1 (Prod.ext s2 s3)

def attn (qR kR vR : Fin 16 → Fin 4096 → Fin 64 → ℝ) : Vec Ideal S16x4096x64 .bf16 :=
  fun i => (((∑ m : Fin 4096, Real.exp (∑ e : Fin 64, qR (i 0 : Fin 16) (i 1 : Fin 4096) e * kR (i 0 : Fin 16) m e) * vR (i 0 : Fin 16) m (i 2 : Fin 64))
    / (∑ m : Fin 4096, Real.exp (∑ e : Fin 64, qR (i 0 : Fin 16) (i 1 : Fin 4096) e * kR (i 0 : Fin 16) m e)) : ℝ) : EReal)

theorem attn_apply (qR kR vR : Fin 16 → Fin 4096 → Fin 64 → ℝ) (bh : Fin 16) (n : Fin 4096) (d : Fin 64) :
    attn qR kR vR (ix3 bh n d) = (((∑ m : Fin 4096, Real.exp (∑ e : Fin 64, qR bh n e * kR bh m e) * vR bh m d)
      / (∑ m : Fin 4096, Real.exp (∑ e : Fin 64, qR bh n e * kR bh m e)) : ℝ) : EReal) := rfl

theorem oblk_emb (t : Fin cfg1.N) (b : Fin 1) (p : Fin 1024) (e : Fin 64) (bh : Fin 16) (hbh : bh.val = t.val / 32)
    (r : Fin 4096) (hr : r.val = (1024 * (t.val / 8 % 4) + p.val) % 4096) :
    ((cfg1.win 3).blk t).view.emb (ix3 b p e) = ix3 bh r e := by
  obtain ⟨-, -, -, ⟨e0, e1, e2⟩⟩ := idx_facts1 t
  have ht : t.val < 512 := Nat.lt_of_lt_of_eq t.isLt N_1
  have hp : p.val < 1024 := p.isLt
  have hb : b.val = 0 := by omega
  funext a; apply Fin.ext
  match a with
  | ⟨0, _⟩ => show win1_3.index t (0 : Fin 3) * 1 + 1 * b.val = bh.val; rw [e0, hbh, hb]; omega
  | ⟨1, _⟩ => show win1_3.index t (1 : Fin 3) * 1024 + 1 * p.val = r.val; rw [e1, hr]; omega
  | ⟨2, _⟩ => show win1_3.index t (2 : Fin 3) * 64 + 1 * e.val = e.val; rw [e2]; omega

theorem flushed1_eq (c : Dev nD) (qR kR vR : Fin 16 → Fin 4096 → Fin 64 → ℝ)
    (hq : ∀ (bh : Fin 16) (n : Fin 4096) (e : Fin 64), V c main_v14 (ix3 bh n e) = ((qR bh n e : ℝ) : EReal))
    (hk : ∀ (bh : Fin 16) (n : Fin 4096) (e : Fin 64), V c main_v17 (ix3 bh n e) = ((kR bh n e : ℝ) : EReal))
    (hv : ∀ (bh : Fin 16) (n : Fin 4096) (e : Fin 64), V c main_v20 (ix3 bh n e) = ((vR bh n e : ℝ) : EReal))
    (t : Fin cfg1.N) (hL : t.val % 8 = 7) :
    (dat1 V c).flushed 3 t = ((cfg1.win 3).blk t).view.read (Elt Ideal) (attn qR kR vR) := by
  show (cfg1.win 3).cut (grid1.coords t) ((dat1 V c).after 3 t) = _
  rw [after1_3, out1_last V c t hL]
  have ht : t.val < 512 := Nat.lt_of_lt_of_eq t.isLt N_1
  obtain ⟨bh, hbh⟩ : ∃ bh : Fin 16, bh.val = t.val / 32 := ⟨⟨t.val / 32, by omega⟩, rfl⟩
  have hst := state_eq V c qR kR vR hq hk hv t.val t.isLt bh hbh
  rw [show t.val % 8 + 1 = 8 by omega] at hst
  rw [hst]
  funext j
  obtain ⟨b, p, e, rfl⟩ : ∃ (b : Fin 1) (p : Fin 1024) (e : Fin 64), j = ix3 b p e := ⟨j 0, j 1, j 2, eq_ix3 (n0 := 1) (n1 := 1024) (n2 := 64) j⟩
  show outO (matB (rst (Qb qR bh (t.val / 8 % 4)) (Kb kR bh) (Kb vR bh) 8).2.2) (colB (rst (Qb qR bh (t.val / 8 % 4)) (Kb kR bh) (Kb vR bh) 8).2.1) (ix3 b p e)
    = attn qR kR vR (((cfg1.win 3).blk t).view.emb (ix3 b p e))
  rw [oblk_emb t b p e bh hbh ⟨(1024 * (t.val / 8 % 4) + p.val) % 4096, Nat.mod_lt _ (by norm_num)⟩ rfl, attn_apply]
  obtain rfl : b = 0 := Subsingleton.elim _ _
  rw [out_real _ _ (fun n' => (ratio_eq qR kR vR bh (t.val / 8 % 4) n' e ⟨(1024 * (t.val / 8 % 4) + n'.val) % 4096, Nat.mod_lt _ (by norm_num)⟩ rfl).1) p e,
    (ratio_eq qR kR vR bh (t.val / 8 % 4) p e ⟨(1024 * (t.val / 8 % 4) + p.val) % 4096, Nat.mod_lt _ (by norm_num)⟩ rfl).2]

theorem mem_blk1 (t : Fin cfg1.N) (i : S16x4096x64.Idx) :
    i ∈ ((cfg1.win 3).blk t).view.set ↔ ∀ a : Fin 3, win1_3.index t a * S1x1024x64.size a ≤ (i a).val ∧ (i a).val < win1_3.index t a * S1x1024x64.size a + S1x1024x64.size a := by
  show i ∈ ((View.whole main_v21).slice (win1_3.rect t)).set ↔ _
  rw [View.set_slice_whole, Rect.mem_set_unit]
  exact Iff.rfl

theorem cover1 (i : S16x4096x64.Idx) : ∃ t : Fin cfg1.N, (cfg1.win 3).flush t = true ∧ i ∈ ((cfg1.win 3).blk t).view.set := by
  have hi0 : (i 0).val < 16 := (i 0).isLt
  have hi1 : (i 1).val < 4096 := (i 1).isLt
  have hi2 : (i 2).val < 64 := (i 2).isLt
  have hlt : (i 0).val * 32 + (i 1).val / 1024 * 8 + 7 < 512 := by omega
  obtain ⟨t, htv⟩ : ∃ t : Fin cfg1.N, t.val = (i 0).val * 32 + (i 1).val / 1024 * 8 + 7 := ⟨⟨_, Nat.lt_of_lt_of_eq hlt N_1.symm⟩, rfl⟩
  obtain ⟨-, -, -, ⟨e0, e1, e2⟩⟩ := idx_facts1 t
  refine ⟨t, (flush1_3 t).mpr (by omega), ?_⟩
  rw [mem_blk1]
  intro a
  match a with
  | ⟨0, _⟩ => show win1_3.index t (0 : Fin 3) * 1 ≤ (i 0).val ∧ (i 0).val < win1_3.index t (0 : Fin 3) * 1 + 1; rw [e0, htv]; omega
  | ⟨1, _⟩ => show win1_3.index t (1 : Fin 3) * 1024 ≤ (i 1).val ∧ (i 1).val < win1_3.index t (1 : Fin 3) * 1024 + 1024; rw [e1, htv]; omega
  | ⟨2, _⟩ => show win1_3.index t (2 : Fin 3) * 64 ≤ (i 2).val ∧ (i 2).val < win1_3.index t (2 : Fin 3) * 64 + 64; rw [e2]; omega

theorem arr1_3 (c : Dev nD) (qR kR vR : Fin 16 → Fin 4096 → Fin 64 → ℝ)
    (hq : ∀ (bh : Fin 16) (n : Fin 4096) (e : Fin 64), V c main_v14 (ix3 bh n e) = ((qR bh n e : ℝ) : EReal))
    (hk : ∀ bh n e, V c main_v17 (ix3 bh n e) = ((kR bh n e : ℝ) : EReal)) (hv : ∀ bh n e, V c main_v20 (ix3 bh n e) = ((vR bh n e : ℝ) : EReal))
    (bh : Fin 16) (n : Fin 4096) (d : Fin 64) :
    (dat1 V c).arrAt 3 cfg1.N (ix3 bh n d) = (((∑ m : Fin 4096, Real.exp (∑ e : Fin 64, qR bh n e * kR bh m e) * vR bh m d) / (∑ m : Fin 4096, Real.exp (∑ e : Fin 64, qR bh n e * kR bh m e)) : ℝ) : EReal) := by
  rw [(dat1 V c).arrAt_eq_of_cover 3 (attn qR kR vR) (fun t hf => flushed1_eq V c qR kR vR hq hk hv t ((flush1_3 t).mp hf)) cover1]
  rfl

end

end Cert.KernelIdeal.Val1
end
-- ==== Proof.Bridge.lean ====
import proofs.«403715_j42039139893702_3_alg».proof.Proof.Run
import proofs.«403715_j42039139893702_3_alg».proof.Proof.Value0
import proofs.«403715_j42039139893702_3_alg».proof.Proof.Value2
import proofs.«403715_j42039139893702_3_alg».proof.Proof.HostVal
import proofs.«403715_j42039139893702_3_alg».proof.Proof.FiniteInputs
import proofs.«403715_j42039139893702_3_alg».proof.Proof.Spec
import proofs.«403715_j42039139893702_3_alg».proof.Proof.SoftmaxMath
import proofs.«403715_j42039139893702_3_alg».proof.Proof.RefVal
import proofs.«403715_j42039139893702_3_alg».proof.Proof.Value1

noncomputable section

namespace Cert.KernelIdeal.Bridge

open Cert.KernelIdeal Cert.KernelIdeal.Gen Idealize.ShloMosaic Idealize.ShloMosaic.TcCoe Idealize.SL.Sem Idealize.ShloMosaic.ValueIdx
open Cert.KernelIdeal.HostVal Cert.KernelIdeal.Val0 Cert.KernelIdeal.Val2
open Cert.ReferenceIdeal.RefVal (flatX mat matO)
open Cert.SoftmaxMath (coe_sum)
open scoped BigOperators

variable (m : (ℓ : Loc nD τ sig) → Buf (Elt Ideal) ℓ) (ρ : Dev nD → PrngReg) (c : Dev nD)
variable (X5 : S2x4x32x32x256.Idx → ℝ) (Wq2 Wk2 Wv2 : S512x256.Idx → ℝ) (Wo2 : S256x512.Idx → ℝ)

theorem x_at (h0 : m ((c.tc : Thread nD τ).loc main_arg0) = fun i => ((X5 i : ℝ) : EReal))
    (b : Fin 2) (t : Fin 4) (y x : Fin 32) (k : Fin 256) (r : Fin 8192)
    (hr : r.val = ((b.val * 4 + t.val) * 32 + y.val) * 32 + x.val) :
    W1 m ρ c (Proc.devRef .tc main_v10) (ix2 r k) = ((X5 (ix5 b t y x k) : ℝ) : EReal) := by
  have e : r = (⟨((b.val * 4 + t.val) * 32 + y.val) * 32 + x.val, by clear hr; omega⟩ : Fin 8192) := Fin.ext hr
  subst e
  exact (h0_v10 (W0 m ρ c) b t y x k).trans (congrFun h0 (ix5 b t y x k))

theorem x_row (h0 : m ((c.tc : Thread nD τ).loc main_arg0) = fun i => ((X5 i : ℝ) : EReal))
    (r : Fin 8192) (k : Fin 256) :
    W1 m ρ c (Proc.devRef .tc main_v10) (ix2 r k) = ((flatX X5 r k : ℝ) : EReal) :=
  x_at m ρ c X5 h0 ⟨r.val / 4096, by omega⟩ ⟨r.val / 1024 % 4, by omega⟩ ⟨r.val / 32 % 32, by omega⟩ ⟨r.val % 32, by omega⟩ k r
    (by show r.val = ((r.val / 4096 * 4 + r.val / 1024 % 4) * 32 + r.val / 32 % 32) * 32 + r.val % 32; omega)

theorem wq_at (h1 : m ((c.tc : Thread nD τ).loc main_arg1) = fun i => ((Wq2 i : ℝ) : EReal))
    (k : Fin 256) (e : Fin 512) :
    W1 m ρ c (Proc.devRef .tc main_v3) (ix2 k e) = ((mat Wq2 e k * (1 / 8) : ℝ) : EReal) := by
  refine (h0_v3 (W0 m ρ c) k e).trans ?_
  rw [eighth, EReal.coe_mul]
  exact congrArg (fun z : EReal => z * (((1 / 8 : ℝ) : ℝ) : EReal)) (congrFun h1 (ix2 e k))

theorem wk_at (h2 : m ((c.tc : Thread nD τ).loc main_arg2) = fun i => ((Wk2 i : ℝ) : EReal))
    (k : Fin 256) (e : Fin 512) :
    W1 m ρ c (Proc.devRef .tc main_v5) (ix2 k e) = ((mat Wk2 e k : ℝ) : EReal) :=
  (h0_v5 (W0 m ρ c) k e).trans (congrFun h2 (ix2 e k))

theorem wv_at (h3 : m ((c.tc : Thread nD τ).loc main_arg3) = fun i => ((Wv2 i : ℝ) : EReal))
    (k : Fin 256) (e : Fin 512) :
    W1 m ρ c (Proc.devRef .tc main_v7) (ix2 k e) = ((mat Wv2 e k : ℝ) : EReal) :=
  (h0_v7 (W0 m ρ c) k e).trans (congrFun h3 (ix2 e k))

theorem wo_at (h4 : m ((c.tc : Thread nD τ).loc main_arg4) = fun i => ((Wo2 i : ℝ) : EReal))
    (e : Fin 512) (k : Fin 256) :
    W1 m ρ c (Proc.devRef .tc main_v9) (ix2 e k) = ((matO Wo2 k e : ℝ) : EReal) :=
  (h0_v9 (W0 m ρ c) e k).trans (congrFun h4 (ix2 k e))

theorem sum_mul_coe {ι : Type} [Fintype ι] (a b : ι → EReal) (f g : ι → ℝ)
    (ha : ∀ k, a k = ((f k : ℝ) : EReal)) (hb : ∀ k, b k = ((g k : ℝ) : EReal)) :
    ∑ k, a k * b k = ((∑ k, f k * g k : ℝ) : EReal) := by
  rw [coe_sum]
  refine Finset.sum_congr rfl fun k _ => ?_
  rw [ha k, hb k, EReal.coe_mul]

theorem proj_q (h0 : m ((c.tc : Thread nD τ).loc main_arg0) = fun i => ((X5 i : ℝ) : EReal))
    (h1 : m ((c.tc : Thread nD τ).loc main_arg1) = fun i => ((Wq2 i : ℝ) : EReal))
    (r : Fin 8192) (e : Fin 512) :
    W2 m ρ c (Proc.devRef .tc main_v11_0) (ix2 r e)
      = ((Cert.Spec.proj (flatX X5) (mat Wq2) r e * (1 / 8) : ℝ) : EReal) := by
  have h := congrFun ((W2_arr m ρ c 4).trans (arr0_4 (U1 m ρ) c)) (ix2 r e)
  refine h.trans ?_
  rw [prod0_apply]
  refine (sum_mul_coe _ _ _ _ (fun k => x_row m ρ c X5 h0 r k) (fun k => wq_at m ρ c Wq2 h1 k e)).trans ?_
  refine congrArg (fun z : ℝ => (z : EReal)) ?_
  unfold Cert.Spec.proj
  rw [Finset.sum_mul]
  exact Finset.sum_congr rfl fun k _ => (mul_assoc _ _ _).symm

theorem proj_k (h0 : m ((c.tc : Thread nD τ).loc main_arg0) = fun i => ((X5 i : ℝ) : EReal))
    (h2 : m ((c.tc : Thread nD τ).loc main_arg2) = fun i => ((Wk2 i : ℝ) : EReal))
    (r : Fin 8192) (e : Fin 512) :
    W2 m ρ c (Proc.devRef .tc main_v11_1) (ix2 r e) = ((Cert.Spec.proj (flatX X5) (mat Wk2) r e : ℝ) : EReal) := by
  have h := congrFun ((W2_arr m ρ c 5).trans (arr0_5 (U1 m ρ) c)) (ix2 r e)
  refine h.trans ?_
  rw [prod0_apply]
  exact sum_mul_coe _ _ _ _ (fun k => x_row m ρ c X5 h0 r k) (fun k => wk_at m ρ c Wk2 h2 k e)

theorem proj_v (h0 : m ((c.tc : Thread nD τ).loc main_arg0) = fun i => ((X5 i : ℝ) : EReal))
    (h3 : m ((c.tc : Thread nD τ).loc main_arg3) = fun i => ((Wv2 i : ℝ) : EReal))
    (r : Fin 8192) (e : Fin 512) :
    W2 m ρ c (Proc.devRef .tc main_v11_2) (ix2 r e) = ((Cert.Spec.proj (flatX X5) (mat Wv2) r e : ℝ) : EReal) := by
  have h := congrFun ((W2_arr m ρ c 6).trans (arr0_6 (U1 m ρ) c)) (ix2 r e)
  refine h.trans ?_
  rw [prod0_apply]
  exact sum_mul_coe _ _ _ _ (fun k => x_row m ρ c X5 h0 r k) (fun k => wv_at m ρ c Wv2 h3 k e)

def hb (bh : Fin 16) : Fin 2 := ⟨bh.val / 8, by omega⟩
def hh (bh : Fin 16) : Fin 8 := ⟨bh.val % 8, by omega⟩

theorem bh_eq (bh : Fin 16) : bh = (⟨(hb bh).val * 8 + (hh bh).val, by have := (hb bh).isLt; have := (hh bh).isLt; omega⟩ : Fin 16) :=
  Fin.ext (by show bh.val = bh.val / 8 * 8 + bh.val % 8; omega)
theorem hb_mk (b : Fin 2) (h : Fin 8) : hb (⟨b.val * 8 + h.val, by omega⟩ : Fin 16) = b :=
  Fin.ext (by show (b.val * 8 + h.val) / 8 = b.val; omega)
theorem hh_mk (b : Fin 2) (h : Fin 8) : hh (⟨b.val * 8 + h.val, by omega⟩ : Fin 16) = h :=
  Fin.ext (by show (b.val * 8 + h.val) % 8 = h.val; omega)

theorem q_head (h0 : m ((c.tc : Thread nD τ).loc main_arg0) = fun i => ((X5 i : ℝ) : EReal))
    (h1 : m ((c.tc : Thread nD τ).loc main_arg1) = fun i => ((Wq2 i : ℝ) : EReal))
    (bh : Fin 16) (n : Fin 4096) (d : Fin 64) :
    W3 m ρ c (Proc.devRef .tc main_v14) (ix3 bh n d)
      = ((Cert.Spec.proj (flatX X5) (mat Wq2) (Cert.Spec.row (hb bh) n) (Cert.Spec.col (hh bh) d) * (1 / 8) : ℝ) : EReal) := by
  have h := (h1_v14 (W2 m ρ c) (hb bh) (hh bh) n d).trans
    (proj_q m ρ c X5 Wq2 h0 h1 (Cert.Spec.row (hb bh) n) (Cert.Spec.col (hh bh) d))
  rw [← bh_eq bh] at h
  exact h

theorem k_head (h0 : m ((c.tc : Thread nD τ).loc main_arg0) = fun i => ((X5 i : ℝ) : EReal))
    (h2 : m ((c.tc : Thread nD τ).loc main_arg2) = fun i => ((Wk2 i : ℝ) : EReal))
    (bh : Fin 16) (n : Fin 4096) (d : Fin 64) :
    W3 m ρ c (Proc.devRef .tc main_v17) (ix3 bh n d)
      = ((Cert.Spec.proj (flatX X5) (mat Wk2) (Cert.Spec.row (hb bh) n) (Cert.Spec.col (hh bh) d) : ℝ) : EReal) := by
  have h := (h1_v17 (W2 m ρ c) (hb bh) (hh bh) n d).trans
    (proj_k m ρ c X5 Wk2 h0 h2 (Cert.Spec.row (hb bh) n) (Cert.Spec.col (hh bh) d))
  rw [← bh_eq bh] at h
  exact h

theorem v_head (h0 : m ((c.tc : Thread nD τ).loc main_arg0) = fun i => ((X5 i : ℝ) : EReal))
    (h3 : m ((c.tc : Thread nD τ).loc main_arg3) = fun i => ((Wv2 i : ℝ) : EReal))
    (bh : Fin 16) (n : Fin 4096) (d : Fin 64) :
    W3 m ρ c (Proc.devRef .tc main_v20) (ix3 bh n d)
      = ((Cert.Spec.proj (flatX X5) (mat Wv2) (Cert.Spec.row (hb bh) n) (Cert.Spec.col (hh bh) d) : ℝ) : EReal) := by
  have h := (h1_v20 (W2 m ρ c) (hb bh) (hh bh) n d).trans
    (proj_v m ρ c X5 Wv2 h0 h3 (Cert.Spec.row (hb bh) n) (Cert.Spec.col (hh bh) d))
  rw [← bh_eq bh] at h
  exact h

theorem score_scaled (Q K : Fin 8192 → Fin 512 → ℝ) (b : Fin 2) (h : Fin 8) (n n' : Fin 4096) :
    ∑ e : Fin 64, Q (Cert.Spec.row b n) (Cert.Spec.col h e) * (1 / 8) * K (Cert.Spec.row b n') (Cert.Spec.col h e)
      = Cert.Spec.score Q K b h n n' := by
  unfold Cert.Spec.score
  rw [Finset.sum_mul]
  exact Finset.sum_congr rfl fun e _ => mul_right_comm _ _ _

theorem attn_bh (h0 : m ((c.tc : Thread nD τ).loc main_arg0) = fun i => ((X5 i : ℝ) : EReal))
    (h1 : m ((c.tc : Thread nD τ).loc main_arg1) = fun i => ((Wq2 i : ℝ) : EReal))
    (h2 : m ((c.tc : Thread nD τ).loc main_arg2) = fun i => ((Wk2 i : ℝ) : EReal))
    (h3 : m ((c.tc : Thread nD τ).loc main_arg3) = fun i => ((Wv2 i : ℝ) : EReal))
    (bh : Fin 16) (n : Fin 4096) (d : Fin 64) :
    W4 m ρ c (Proc.devRef .tc main_v21) (ix3 bh n d)
      = ((Cert.Spec.attn (Cert.Spec.proj (flatX X5) (mat Wq2)) (Cert.Spec.proj (flatX X5) (mat Wk2))
            (Cert.Spec.proj (flatX X5) (mat Wv2)) (hb bh) (hh bh) n d : ℝ) : EReal) := by
  have h := congrFun (W4_arr m ρ c 3) (ix3 bh n d)
  refine h.trans ((Cert.KernelIdeal.Val1.arr1_3 (U3 m ρ) c
    (fun bh n e => Cert.Spec.proj (flatX X5) (mat Wq2) (Cert.Spec.row (hb bh) n) (Cert.Spec.col (hh bh) e) * (1 / 8))
    (fun bh n e => Cert.Spec.proj (flatX X5) (mat Wk2) (Cert.Spec.row (hb bh) n) (Cert.Spec.col (hh bh) e))
    (fun bh n e => Cert.Spec.proj (flatX X5) (mat Wv2) (Cert.Spec.row (hb bh) n) (Cert.Spec.col (hh bh) e))
    (fun bh n e => q_head m ρ c X5 Wq2 h0 h1 bh n e)
    (fun bh n e => k_head m ρ c X5 Wk2 h0 h2 bh n e)
    (fun bh n e => v_head m ρ c X5 Wv2 h0 h3 bh n e) bh n d).trans ?_)
  refine congrArg (fun z : ℝ => (z : EReal)) ?_
  unfold Cert.Spec.attn
  simp only [score_scaled]

theorem merged_at (h0 : m ((c.tc : Thread nD τ).loc main_arg0) = fun i => ((X5 i : ℝ) : EReal))
    (h1 : m ((c.tc : Thread nD τ).loc main_arg1) = fun i => ((Wq2 i : ℝ) : EReal))
    (h2 : m ((c.tc : Thread nD τ).loc main_arg2) = fun i => ((Wk2 i : ℝ) : EReal))
    (h3 : m ((c.tc : Thread nD τ).loc main_arg3) = fun i => ((Wv2 i : ℝ) : EReal))
    (b : Fin 2) (h : Fin 8) (n : Fin 4096) (d : Fin 64) (r : Fin 8192) (e : Fin 512)
    (hr : r.val = b.val * 4096 + n.val) (he : e.val = h.val * 64 + d.val) :
    W5 m ρ c (Proc.devRef .tc main_v24) (ix2 r e)
      = ((Cert.Spec.attn (Cert.Spec.proj (flatX X5) (mat Wq2)) (Cert.Spec.proj (flatX X5) (mat Wk2))
            (Cert.Spec.proj (flatX X5) (mat Wv2)) b h n d : ℝ) : EReal) := by
  have er : r = (⟨b.val * 4096 + n.val, by clear hr he; omega⟩ : Fin 8192) := Fin.ext hr
  have ee : e = (⟨h.val * 64 + d.val, by clear hr he; omega⟩ : Fin 512) := Fin.ext he
  subst er ee
  have h := (h2_v24 (W4 m ρ c) b h n d).trans
    (attn_bh m ρ c X5 Wq2 Wk2 Wv2 h0 h1 h2 h3 (⟨b.val * 8 + h.val, by omega⟩ : Fin 16) n d)
  rw [hb_mk, hh_mk] at h
  exact h

theorem merged_flat (h0 : m ((c.tc : Thread nD τ).loc main_arg0) = fun i => ((X5 i : ℝ) : EReal))
    (h1 : m ((c.tc : Thread nD τ).loc main_arg1) = fun i => ((Wq2 i : ℝ) : EReal))
    (h2 : m ((c.tc : Thread nD τ).loc main_arg2) = fun i => ((Wk2 i : ℝ) : EReal))
    (h3 : m ((c.tc : Thread nD τ).loc main_arg3) = fun i => ((Wv2 i : ℝ) : EReal))
    (r : Fin 8192) (e : Fin 512) :
    W5 m ρ c (Proc.devRef .tc main_v24) (ix2 r e)
      = ((Cert.Spec.attnFlat (Cert.Spec.proj (flatX X5) (mat Wq2)) (Cert.Spec.proj (flatX X5) (mat Wk2))
            (Cert.Spec.proj (flatX X5) (mat Wv2)) r e : ℝ) : EReal) :=
  merged_at m ρ c X5 Wq2 Wk2 Wv2 h0 h1 h2 h3 ⟨r.val / 4096, by omega⟩ ⟨e.val / 64, by omega⟩
    ⟨r.val % 4096, by omega⟩ ⟨e.val % 64, by omega⟩ r e
    (by show r.val = r.val / 4096 * 4096 + r.val % 4096; omega)
    (by show e.val = e.val / 64 * 64 + e.val % 64; omega)

theorem v9_carry : W5 m ρ c (Proc.devRef .tc main_v9) = W1 m ρ c (Proc.devRef .tc main_v9) :=
  calc W5 m ρ c (Proc.devRef .tc main_v9)
    _ = W4 m ρ c (Proc.devRef .tc main_v9) := StableHlo.after_of_writes_sub hostOps2 _ hostOps2_writes (r := main_v9) (by decide)
    _ = W3 m ρ c (Proc.devRef .tc main_v9) := W4_of_ne m ρ c main_v9 (by decide)
    _ = W2 m ρ c (Proc.devRef .tc main_v9) := StableHlo.after_of_writes_sub hostOps1 _ hostOps1_writes (r := main_v9) (by decide)
    _ = W1 m ρ c (Proc.devRef .tc main_v9) := W2_of_ne m ρ c main_v9 (by decide)

theorem wo5_at (h4 : m ((c.tc : Thread nD τ).loc main_arg4) = fun i => ((Wo2 i : ℝ) : EReal))
    (e : Fin 512) (k : Fin 256) :
    W5 m ρ c (Proc.devRef .tc main_v9) (ix2 e k) = ((matO Wo2 k e : ℝ) : EReal) :=
  (congrFun (v9_carry m ρ c) (ix2 e k)).trans (wo_at m ρ c Wo2 h4 e k)

theorem out_at (h0 : m ((c.tc : Thread nD τ).loc main_arg0) = fun i => ((X5 i : ℝ) : EReal))
    (h1 : m ((c.tc : Thread nD τ).loc main_arg1) = fun i => ((Wq2 i : ℝ) : EReal))
    (h2 : m ((c.tc : Thread nD τ).loc main_arg2) = fun i => ((Wk2 i : ℝ) : EReal))
    (h3 : m ((c.tc : Thread nD τ).loc main_arg3) = fun i => ((Wv2 i : ℝ) : EReal))
    (h4 : m ((c.tc : Thread nD τ).loc main_arg4) = fun i => ((Wo2 i : ℝ) : EReal))
    (r : Fin 8192) (k : Fin 256) :
    W6 m ρ c (Proc.devRef .tc main_v25) (ix2 r k)
      = ((Cert.Spec.out (flatX X5) (mat Wq2) (mat Wk2) (mat Wv2) (matO Wo2) r k : ℝ) : EReal) := by
  have h := congrFun ((W6_arr m ρ c 2).trans (arr2_2 (U5 m ρ) c)) (ix2 r k)
  refine h.trans ?_
  rw [prod2_apply]
  exact sum_mul_coe _ _ _ _ (fun e => merged_flat m ρ c X5 Wq2 Wk2 Wv2 h0 h1 h2 h3 r e)
    (fun e => wo5_at m ρ c Wo2 h4 e k)

theorem kernel_out (m : (ℓ : Loc nD τ sig) → Buf (Elt Ideal) ℓ) (ρ : Dev nD → PrngReg) (c : Dev nD)
    (X5 : S2x4x32x32x256.Idx → ℝ) (Wq2 Wk2 Wv2 : S512x256.Idx → ℝ) (Wo2 : S256x512.Idx → ℝ)
    (h0 : m ((c.tc : Thread nD τ).loc main_arg0) = fun i => ((X5 i : ℝ) : EReal))
    (h1 : m ((c.tc : Thread nD τ).loc main_arg1) = fun i => ((Wq2 i : ℝ) : EReal))
    (h2 : m ((c.tc : Thread nD τ).loc main_arg2) = fun i => ((Wk2 i : ℝ) : EReal))
    (h3 : m ((c.tc : Thread nD τ).loc main_arg3) = fun i => ((Wv2 i : ℝ) : EReal))
    (h4 : m ((c.tc : Thread nD τ).loc main_arg4) = fun i => ((Wo2 i : ℝ) : EReal))
    (b : Fin 2) (t : Fin 4) (y x : Fin 32) (k : Fin 256) :
    W7 (F := Ideal) m ρ c (Proc.devRef .tc main_v26) (ix5 b t y x k)
      = ((Cert.Spec.out (Cert.ReferenceIdeal.RefVal.flatX X5) (Cert.ReferenceIdeal.RefVal.mat Wq2)
            (Cert.ReferenceIdeal.RefVal.mat Wk2) (Cert.ReferenceIdeal.RefVal.mat Wv2) (Cert.ReferenceIdeal.RefVal.matO Wo2)
            ⟨((b.val * 4 + t.val) * 32 + y.val) * 32 + x.val, by omega⟩ k : ℝ) : EReal) :=
  (h3_v26 (W6 m ρ c) b t y x k).trans (out_at m ρ c X5 Wq2 Wk2 Wv2 Wo2 h0 h1 h2 h3 h4 _ k)

end Cert.KernelIdeal.Bridge

end
-- ==== Proof.lean ====
import proofs.«403715_j42039139893702_3_alg».proof.Defs
import proofs.«403715_j42039139893702_3_alg».proof.Proof.Gen.Kernel
import proofs.«403715_j42039139893702_3_alg».proof.Proof.Gen.KernelIdeal
import proofs.«403715_j42039139893702_3_alg».proof.Proof.Gen.ReferenceIdeal
import proofs.«403715_j42039139893702_3_alg».proof.Proof.Gen.Pre_finite_inputs
import proofs.«403715_j42039139893702_3_alg».proof.Proof.WordRun
import proofs.«403715_j42039139893702_3_alg».proof.Proof.Run
import proofs.«403715_j42039139893702_3_alg».proof.Proof.Bridge
import proofs.«403715_j42039139893702_3_alg».proof.Proof.RefVal
import proofs.«403715_j42039139893702_3_alg».proof.Proof.FiniteInputs
import Idealize.ShloMosaic.Adequacy
import Idealize.ShloMosaic.Init

noncomputable section

namespace Cert.Proof

open Idealize.ShloMosaic Idealize.SL.Sem Idealize.ShloMosaic.ValueIdx

theorem frame_word : Cert.frame_Kernel := fun m ρ _ => Cert.Kernel.Gen.frame_hand (F := Bits) m ρ

theorem frame_ideal : Cert.frame_KernelIdeal := fun m ρ _ => Cert.KernelIdeal.Gen.frame_hand (F := Ideal) m ρ

theorem frame_ref : Cert.frame_ReferenceIdeal := fun m ρ _ =>
  (θ_run Cert.ReferenceIdeal.defs _ _).mono (fun _ h c => (h c).2) (Cert.ReferenceIdeal.Value.run (F := Ideal) m ρ)

def result5 (X5 : Cert.ReferenceIdeal.S2x4x32x32x256.Idx → ℝ) (Wq2 Wk2 Wv2 : Cert.ReferenceIdeal.S512x256.Idx → ℝ)
    (Wo2 : Cert.ReferenceIdeal.S256x512.Idx → ℝ) (b : Fin 2) (t : Fin 4) (y x : Fin 32) (k : Fin 256) : EReal :=
  ((Cert.Spec.out (Cert.ReferenceIdeal.RefVal.flatX X5) (Cert.ReferenceIdeal.RefVal.mat Wq2) (Cert.ReferenceIdeal.RefVal.mat Wk2)
    (Cert.ReferenceIdeal.RefVal.mat Wv2) (Cert.ReferenceIdeal.RefVal.matO Wo2)
    ⟨((b.val * 4 + t.val) * 32 + y.val) * 32 + x.val, by omega⟩ k : ℝ) : EReal)

def result (X5 : Cert.ReferenceIdeal.S2x4x32x32x256.Idx → ℝ) (Wq2 Wk2 Wv2 : Cert.ReferenceIdeal.S512x256.Idx → ℝ)
    (Wo2 : Cert.ReferenceIdeal.S256x512.Idx → ℝ) : Cert.ReferenceIdeal.S2x4x32x32x256.Idx → EReal :=
  fun i => result5 X5 Wq2 Wk2 Wv2 Wo2 (i 0 : Fin 2) (i 1 : Fin 4) (i 2 : Fin 32) (i 3 : Fin 32) (i 4 : Fin 256)

theorem algebraic : Cert.algebraic_KernelIdeal_ReferenceIdeal := by
  intro m ρ m' ρ' hpre hagree
  choose X5 hX5 using Cert.KernelIdeal.Fin.real_arg0 m hpre
  choose Wq2 hWq using Cert.KernelIdeal.Fin.real_arg1 m hpre
  choose Wk2 hWk using Cert.KernelIdeal.Fin.real_arg2 m hpre
  choose Wv2 hWv using Cert.KernelIdeal.Fin.real_arg3 m hpre
  choose Wo2 hWo using Cert.KernelIdeal.Fin.real_arg4 m hpre
  refine ⟨fun c => result (X5 c) (Wq2 c) (Wk2 c) (Wv2 c) (Wo2 c), ?_, ?_⟩
  · refine (θ_run Cert.KernelIdeal.defs _ _).mono (fun r h c => ⟨(h c).1.trans ?_, (h c).2⟩)
      (Cert.KernelIdeal.Gen.run_result (F := Ideal) m ρ)
    funext i
    obtain ⟨b, t, y, x, k, rfl⟩ : ∃ (b : Fin 2) (t : Fin 4) (y x : Fin 32) (k : Fin 256), i = ix5 b t y x k :=
      ⟨i 0, i 1, i 2, i 3, i 4, eq_ix5 i⟩
    show _ = result5 (X5 c) (Wq2 c) (Wk2 c) (Wv2 c) (Wo2 c) b t y x k
    exact Cert.KernelIdeal.Bridge.kernel_out m ρ c (X5 c) (Wq2 c) (Wk2 c) (Wv2 c) (Wo2 c) (hX5 c) (hWq c) (hWk c) (hWv c) (hWo c) b t y x k
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v26_eq, (hagree c).1, (hagree c).2.1, (hagree c).2.2.1, (hagree c).2.2.2.1, (hagree c).2.2.2.2,
      hX5 c, hWq c, hWk c, hWv c, hWo c]
    funext i
    obtain ⟨b, t, y, x, k, rfl⟩ : ∃ (b : Fin 2) (t : Fin 4) (y x : Fin 32) (k : Fin 256), i = ix5 b t y x k :=
      ⟨i 0, i 1, i 2, i 3, i 4, eq_ix5 i⟩
    show _ = result5 (X5 c) (Wq2 c) (Wk2 c) (Wv2 c) (Wo2 c) b t y x k
    exact Cert.ReferenceIdeal.RefVal.ref_out (X5 c) (Wq2 c) (Wk2 c) (Wv2 c) (Wo2 c) b t y x k

theorem claim : Cert.Claim :=
  ⟨Cert.Kernel.Gen.facts, Cert.KernelIdeal.Gen.facts, Cert.ReferenceIdeal.Gen.facts, Cert.Pre_finite_inputs.Gen.facts,
    frame_word, frame_ideal, frame_ref, trivial, algebraic⟩

end Cert.Proof

end
